-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S512x512 : Shape := ⟨2, ![512, 512]⟩
abbrev S1024x512 : Shape := ⟨2, ![1024, 512]⟩
abbrev S1024x256 : Shape := ⟨2, ![1024, 256]⟩
abbrev S512 : Shape := ⟨1, ![512]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x256 : S_.BroadcastsInDim S1024x256 (![] : Fin 0 → Fin S1024x256.rank)
  reducesTo_S1024x256_S_d0_1 : S1024x256.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_v45 : IVec S_ 1) (main_v50 : IVec S320000 1) : IVec S_ 1 :=
  let main_c_19 : IVec S_ 1 := constantI S_ 1 1#1
  let main_v51 : IVec S_ 1 := (fun x v => Host.reduce IntOp.andi x v reducesTo_S320000_S_d0 h_S_) main_v50 main_c_19
  let main_v52 : IVec S_ 1 := andi main_v45 main_v51
  main_v52

def fn_part2 {F : FTy → Type} [FloatOps F] (main_arg1 : IVec S320000 32) (main_arg2 : IVec S320000 32) (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S320000 32 := broadcastInDim S320000 ![] bcast_S_S320000 main_c_14
  let main_v40 : IVec S320000 1 := cmpi .sge main_arg1 main_v39
  let main_c_15 : IVec S_ 32 := constantI S_ 32 10000#32
  let main_v41 : IVec S320000 32 := broadcastInDim S320000 ![] bcast_S_S320000 main_c_15
  let main_v42 : IVec S320000 1 := cmpi .slt main_arg1 main_v41
  let main_v43 : IVec S320000 1 := andi main_v40 main_v42
  let main_c_16 : IVec S_ 1 := constantI S_ 1 1#1
  let main_v44 : IVec S_ 1 := (fun x v => Host.reduce IntOp.andi x v reducesTo_S320000_S_d0 h_S_) main_v43 main_c_16
  let main_v45 : IVec S_ 1 := andi main_v38 main_v44
  let main_c_17 : IVec S_ 32 := constantI S_ 32 0#32
  let main_v46 : IVec S320000 32 := broadcastInDim S320000 ![] bcast_S_S320000 main_c_17
  let main_v47 : IVec S320000 1 := cmpi .sge main_arg2 main_v46
  let main_c_18 : IVec S_ 32 := constantI S_ 32 10000#32
  let main_v48 : IVec S320000 32 := broadcastInDim S320000 ![] bcast_S_S320000 main_c_18
  let main_v49 : IVec S320000 1 := cmpi .slt main_arg2 main_v48
  let main_v50 : IVec S320000 1 := andi main_v47 main_v49
  fn_part3 (F := F) main_v45 main_v50

def fn_part1 {F : FTy → Type} [FloatOps F] (main_arg1 : IVec S320000 32) (main_arg2 : IVec S320000 32) (main_arg6 : FVec F S1024x256 .f32) (main_arg7 : FVec F S512 .f32) (main_arg8 : FVec F S512 .f32) (main_arg9 : FVec F S256 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x256 .f32 := Host.absf main_arg6
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg2 main_arg9 main_v33

def fn {F : FTy → Type} [FloatOps F] (main_arg0 : FVec F S10000x512 .f32) (main_arg1 : IVec S320000 32) (main_arg2 : IVec S320000 32) (main_arg3 : FVec F S320000 .f32) (main_arg4 : FVec F S512x512 .f32) (main_arg5 : FVec F S1024x512 .f32) (main_arg6 : FVec F S1024x256 .f32) (main_arg7 : FVec F S512 .f32) (main_arg8 : FVec F S512 .f32) (main_arg9 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S1024x512 .f32 := Host.absf main_arg5
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg1 main_arg2 main_arg6 main_arg7 main_arg8 main_arg9 main_v13 main_v16
-- ==== Kernel.lean ====
abbrev S10000x512 : Shape := ⟨2, ![10000, 512]⟩
abbrev S320000 : Shape := ⟨1, ![320000]⟩
abbrev S512x512 : Shape := ⟨2, ![512, 512]⟩
abbrev S1024x512 : Shape := ⟨2, ![1024, 512]⟩
abbrev S1024x256 : Shape := ⟨2, ![1024, 256]⟩
abbrev S512 : Shape := ⟨1, ![512]⟩
abbrev S256 : Shape := ⟨1, ![256]⟩
abbrev S_ : Shape := ⟨0, ![]⟩
abbrev S10240x10240 : Shape := ⟨2, ![10240, 10240]⟩
abbrev S320000x1 : Shape := ⟨2, ![320000, 1]⟩
abbrev S320000x2 : Shape := ⟨2, ![320000, 2]⟩
abbrev S10240x512 : Shape := ⟨2, ![10240, 512]⟩
abbrev S1x512 : Shape := ⟨2, ![1, 512]⟩
abbrev S1x256 : Shape := ⟨2, ![1, 256]⟩
abbrev S10240x1024 : Shape := ⟨2, ![10240, 1024]⟩
abbrev S1024x1024 : Shape := ⟨2, ![1024, 1024]⟩
abbrev S10240x256 : Shape := ⟨2, ![10240, 256]⟩
abbrev S10000x256 : Shape := ⟨2, ![10000, 256]⟩

abbrev nBuf : Space → Nat
  | .hbm => 48
  | .vmem => 39
  | .smem => 0
  | _ => 0

abbrev bufTy : (tb : Table) → Fin (tcTables nBuf tb) → BufTy
  | .hbm, ⟨0, _⟩ => ⟨S10000x512, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S512x512, .f32⟩
  | .hbm, ⟨5, _⟩ => ⟨S1024x512, .f32⟩
  | .hbm, ⟨6, _⟩ => ⟨S1024x256, .f32⟩
  | .hbm, ⟨7, _⟩ => ⟨S512, .f32⟩
  | .hbm, ⟨8, _⟩ => ⟨S512, .f32⟩
  | .hbm, ⟨9, _⟩ => ⟨S256, .f32⟩
  | .hbm, ⟨10, _⟩ => ⟨S_, .f32⟩
  | .hbm, ⟨11, _⟩ => ⟨S10240x10240, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x1, .i32⟩
  | .hbm, ⟨28, _⟩ => ⟨S320000x2, .i32⟩
  | .hbm, ⟨29, _⟩ => ⟨S10240x10240, .f32⟩
  | .hbm, ⟨30, _⟩ => ⟨S10240x10240, .bf16⟩
  | .hbm, ⟨31, _⟩ => ⟨S_, .i32⟩
  | .hbm, ⟨32, _⟩ => ⟨S_, .f32⟩
  | .hbm, ⟨33, _⟩ => ⟨S10240x512, .f32⟩
  | .hbm, ⟨34, _⟩ => ⟨S10240x512, .bf16⟩
  | .hbm, ⟨35, _⟩ => ⟨S512x512, .bf16⟩
  | .hbm, ⟨36, _⟩ => ⟨S1024x512, .bf16⟩
  | .hbm, ⟨37, _⟩ => ⟨S1024x256, .bf16⟩
  | .hbm, ⟨38, _⟩ => ⟨S1x512, .f32⟩
  | .hbm, ⟨39, _⟩ => ⟨S1x512, .f32⟩
  | .hbm, ⟨40, _⟩ => ⟨S1x256, .f32⟩
  | .hbm, ⟨41, _⟩ => ⟨S10240x512, .bf16⟩
  | .hbm, ⟨42, _⟩ => ⟨S10240x1024, .bf16⟩
  | .hbm, ⟨43, _⟩ => ⟨S10240x512, .bf16⟩
  | .hbm, ⟨44, _⟩ => ⟨S10240x1024, .bf16⟩
  | .hbm, ⟨45, _⟩ => ⟨S10240x256, .bf16⟩
  | .hbm, ⟨46, _⟩ => ⟨S10240x256, .f32⟩
  | .hbm, ⟨47, _⟩ => ⟨S10000x256, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1x512, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .f32⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S1024x1024, .bf16⟩
  | .local _ .vmem, ⟨20, _⟩ => ⟨S1024x512, .bf16⟩
  | .local _ .vmem, ⟨21, _⟩ => ⟨S1024x512, .bf16⟩
  | .local _ .vmem, ⟨22, _⟩ => ⟨S1x512, .f32⟩
  | .local _ .vmem, ⟨23, _⟩ => ⟨S1024x1024, .bf16⟩
  | .local _ .vmem, ⟨24, _⟩ => ⟨S1024x1024, .bf16⟩
  | .local _ .vmem, ⟨25, _⟩ => ⟨S1024x512, .f32⟩
  | .local _ .vmem, ⟨26, _⟩ => ⟨S1024x1024, .bf16⟩
  | .local _ .vmem, ⟨27, _⟩ => ⟨S1024x1024, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x1024, .bf16⟩
  | .local _ .vmem, ⟨32, _⟩ => ⟨S1024x1024, .bf16⟩
  | .local _ .vmem, ⟨33, _⟩ => ⟨S1024x256, .bf16⟩
  | .local _ .vmem, ⟨34, _⟩ => ⟨S1024x256, .bf16⟩
  | .local _ .vmem, ⟨35, _⟩ => ⟨S1x256, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![10, 10], ![false, false]⟩

def k5_cond2 (i : grid5.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  bcast_S_S10240x10240 : S_.BroadcastsInDim S10240x10240 (![] : Fin 0 → Fin S10240x10240.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  shapeCasts_S512_S1x512 : S512.ShapeCasts S1x512
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  iota_S1024x512_d0_w32 : S1024x512.Iotas .tc 32 [0]
  inb_S1024x1024_S1024x512_0_0 : ∀ a, (![0, 0] : Fin 2 → Nat) a + S1024x512.size a ≤ S1024x1024.size a
  packedbf16_S1024x1024_S1024x512_0_0 : (Rect.unit (s := S1024x1024) ![0, 0] S1024x512.size inb_S1024x1024_S1024x512_0_0).PackedRows (EltTy.packing .bf16)
  inb_S1024x1024_S1024x512_0_512 : ∀ a, (![0, 512] : Fin 2 → Nat) a + S1024x512.size a ≤ S1024x1024.size a
  packedbf16_S1024x1024_S1024x512_0_512 : (Rect.unit (s := S1024x1024) ![0, 512] S1024x512.size inb_S1024x1024_S1024x512_0_512).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  iota_S1024x256_d0_w32 : S1024x256.Iotas .tc 32 [0]
  slices_S10240x256_S10000x256_0_0 : S10240x256.Slices ![0, 0] S10000x256
  scatter_S10240x10240_S320000x2_S320000_n_01_01_1_wf : ScatterDims.WF S10240x10240 S320000x2 S320000 [] [0, 1] [0, 1] 1
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S10240x512.size a
  hwx0_0 : ∀ i : grid0.Coords, EltTy.bits .bf16 = 32 ∨ (Rect.block (s := S10240x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S10240x512.size a
  hwx0_2 : ∀ i : grid0.Coords, EltTy.bits .bf16 = 32 ∨ (Rect.block (s := S10240x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S10240x512.size a
  hwx1_1 : ∀ i : grid1.Coords, EltTy.bits .bf16 = 32 ∨ (Rect.block (s := S10240x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S10240x1024.size a
  hwx1_3 : ∀ i : grid1.Coords, EltTy.bits .bf16 = 32 ∨ (Rect.block (s := S10240x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S10240x1024.size a
  hwx2_0 : ∀ i : grid2.Coords, EltTy.bits .bf16 = 32 ∨ (Rect.block (s := S10240x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x512.size a
  hwx2_1 : ∀ i : grid2.Coords, EltTy.bits .bf16 = 32 ∨ (Rect.block (s := S1024x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S10240x512.size a
  hwx2_2 : ∀ i : grid2.Coords, EltTy.bits .bf16 = 32 ∨ (Rect.block (s := S10240x512) S1024x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .bf16 = 32 ∨ (Rect.block (s := S10240x10240) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S10240x512.size a
  hwx3_1 : ∀ i : grid3.Coords, EltTy.bits .bf16 = 32 ∨ (Rect.block (s := S10240x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S10240x1024.size a
  hwx3_3 : ∀ i : grid3.Coords, EltTy.bits .bf16 = 32 ∨ (Rect.block (s := S10240x1024) S1024x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S10240x1024.size a
  hwx4_0 : ∀ i : grid4.Coords, EltTy.bits .bf16 = 32 ∨ (Rect.block (s := S10240x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S1024x256.size a
  hwx4_1 : ∀ i : grid4.Coords, EltTy.bits .bf16 = 32 ∨ (Rect.block (s := S1024x256) S1024x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S10240x256.size a
  hwx4_2 : ∀ i : grid4.Coords, EltTy.bits .bf16 = 32 ∨ (Rect.block (s := S10240x256) S1024x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S10240x10240.size a
  hwx5_0 : ∀ i : grid5.Coords, EltTy.bits .bf16 = 32 ∨ (Rect.block (s := S10240x10240) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S10240x256.size a
  hwx5_1 : ∀ i : grid5.Coords, EltTy.bits .bf16 = 32 ∨ (Rect.block (s := S10240x256) S1024x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S10240x256.size a
  hwx5_3 : ∀ i : grid5.Coords, EltTy.bits .f32 = 32 ∨ (Rect.block (s := S10240x256) S1024x256.size (cc5_transform_3 i) (hinb5_3 i)).WholeWords (EltTy.packing .f32)

variable [Facts₀]

def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v17) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v25) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v27) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S1024x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S1024x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v23) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S1024x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S320000 : Shape := ⟨1, ![320000]⟩
abbrev S512x512 : Shape := ⟨2, ![512, 512]⟩
abbrev S1024x512 : Shape := ⟨2, ![1024, 512]⟩
abbrev S1024x256 : Shape := ⟨2, ![1024, 256]⟩
abbrev S512 : Shape := ⟨1, ![512]⟩
abbrev S256 : Shape := ⟨1, ![256]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S10000x1024 : Shape := ⟨2, ![10000, 1024]⟩
abbrev S10000x256 : Shape := ⟨2, ![10000, 256]⟩
abbrev S320000x256 : Shape := ⟨2, ![320000, 256]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S512x512, .f32⟩
  | .hbm, ⟨5, _⟩ => ⟨S1024x512, .f32⟩
  | .hbm, ⟨6, _⟩ => ⟨S1024x256, .f32⟩
  | .hbm, ⟨7, _⟩ => ⟨S512, .f32⟩
  | .hbm, ⟨8, _⟩ => ⟨S512, .f32⟩
  | .hbm, ⟨9, _⟩ => ⟨S256, .f32⟩
  | .hbm, ⟨10, _⟩ => ⟨S10000x512, .f32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x512, .f32⟩
  | .hbm, ⟨20, _⟩ => ⟨S320000x1, .f32⟩
  | .hbm, ⟨21, _⟩ => ⟨S320000x512, .f32⟩
  | .hbm, ⟨22, _⟩ => ⟨S320000x512, .f32⟩
  | .hbm, ⟨23, _⟩ => ⟨S_, .f32⟩
  | .hbm, ⟨24, _⟩ => ⟨S10000x512, .f32⟩
  | .hbm, ⟨25, _⟩ => ⟨S320000x1, .i32⟩
  | .hbm, ⟨26, _⟩ => ⟨S10000x512, .f32⟩
  | .hbm, ⟨27, _⟩ => ⟨S1x512, .f32⟩
  | .hbm, ⟨28, _⟩ => ⟨S10000x512, .f32⟩
  | .hbm, ⟨29, _⟩ => ⟨S10000x512, .f32⟩
  | .hbm, ⟨30, _⟩ => ⟨S_, .f32⟩
  | .hbm, ⟨31, _⟩ => ⟨S10000x512, .f32⟩
  | .hbm, ⟨32, _⟩ => ⟨S10000x512, .f32⟩
  | .hbm, ⟨33, _⟩ => ⟨S10000x1024, .f32⟩
  | .hbm, ⟨34, _⟩ => ⟨S10000x512, .f32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S320000x512, .f32⟩
  | .hbm, ⟨44, _⟩ => ⟨S320000x1, .f32⟩
  | .hbm, ⟨45, _⟩ => ⟨S320000x512, .f32⟩
  | .hbm, ⟨46, _⟩ => ⟨S320000x512, .f32⟩
  | .hbm, ⟨47, _⟩ => ⟨S_, .f32⟩
  | .hbm, ⟨48, _⟩ => ⟨S10000x512, .f32⟩
  | .hbm, ⟨49, _⟩ => ⟨S320000x1, .i32⟩
  | .hbm, ⟨50, _⟩ => ⟨S10000x512, .f32⟩
  | .hbm, ⟨51, _⟩ => ⟨S1x512, .f32⟩
  | .hbm, ⟨52, _⟩ => ⟨S10000x512, .f32⟩
  | .hbm, ⟨53, _⟩ => ⟨S10000x512, .f32⟩
  | .hbm, ⟨54, _⟩ => ⟨S_, .f32⟩
  | .hbm, ⟨55, _⟩ => ⟨S10000x512, .f32⟩
  | .hbm, ⟨56, _⟩ => ⟨S10000x512, .f32⟩
  | .hbm, ⟨57, _⟩ => ⟨S10000x1024, .f32⟩
  | .hbm, ⟨58, _⟩ => ⟨S10000x256, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x256, .f32⟩
  | .hbm, ⟨68, _⟩ => ⟨S320000x1, .f32⟩
  | .hbm, ⟨69, _⟩ => ⟨S320000x256, .f32⟩
  | .hbm, ⟨70, _⟩ => ⟨S320000x256, .f32⟩
  | .hbm, ⟨71, _⟩ => ⟨S_, .f32⟩
  | .hbm, ⟨72, _⟩ => ⟨S10000x256, .f32⟩
  | .hbm, ⟨73, _⟩ => ⟨S320000x1, .i32⟩
  | .hbm, ⟨74, _⟩ => ⟨S10000x256, .f32⟩
  | .hbm, ⟨75, _⟩ => ⟨S1x256, .f32⟩
  | .hbm, ⟨76, _⟩ => ⟨S10000x256, .f32⟩
  | .hbm, ⟨77, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  concatenates_S10000x512_S10000x512_S10000x1024_d1 : Shape.Concatenates [S10000x512, S10000x512] S10000x1024 1
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x512_S512x512_S10000x512_1_0_0_1_n_n_wf : DotDims.WF S10000x512 S512x512 S10000x512 [1] [0] [0] [1] [] []
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x1024_S1024x512_S10000x512_1_0_0_1_n_n_wf : DotDims.WF S10000x1024 S1024x512 S10000x512 [1] [0] [0] [1] [] []
  dot_S10000x1024_S1024x256_S10000x256_1_0_0_1_n_n_wf : DotDims.WF S10000x1024 S1024x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.K.Lin0.lean ====
import proofs.«425200_j18691697672407_2_alg».proof.Proof.Gen.Kernel.Launch
import proofs.«425200_j18691697672407_2_alg».proof.Proof.Gen.Kernel.Skeleton
import proofs.«425200_j18691697672407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x512 := Rect.unit (s := S1024x512) ![0, 0] S1024x512.size inb_S1024x512_S1024x512_0_0
abbrev rW0 : Rect S512x512 := Rect.unit (s := S512x512) ![0, 0] S512x512.size inb_S512x512_S512x512_0_0
abbrev rO0 : Rect S1024x512 := Rect.unit (s := S1024x512) ![0, 0] S1024x512.size inb_S1024x512_S1024x512_0_0

def out0_2 (x0 : Vec F S1024x512 .bf16) (x1 : Vec F S512x512 .bf16) : Vec F S1024x512 .bf16 :=
  View.canon [⟨rO0, k0_pay1 (View.ld x0 rX0) (View.ld x1 rW0)⟩]

-- the body leaves the product of its two input blocks in the output block and the inputs as they were
set_option maxHeartbeats 1000000 in
theorem sound_kernel0 (c : Dev nD) (E : Set ℕ) (i : grid0.Coords)
    (arg1 : Memref sig .tc .vmem S1024x512 .bf16) (harg1 : arg1.IsWhole) (arg2 : Memref sig .tc .vmem S512x512 .bf16) (harg2 : arg2.IsWhole)
    (arg3 : Memref sig .tc .vmem S1024x512 .bf16) (harg3 : arg3.IsWhole)
    (x0 : Vec F S1024x512 .bf16) (x1 : Vec F S512x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ ∀ d, (dat0 V c).before 1 t d = iblk0 V c 1 t := by
  refine ⟨fun d => ?_, fun d => ?_⟩ <;>
    exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [(before0 V c t).1, (before0 V c t).2]
  rw [show (dat0 V c).Φ t.succ = (dat0 V c).Φ t.castSucc from rfl, show (dat0 V c).owesAt () t.succ = (dat0 V c).owesAt () t.castSucc from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H2
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lin2.lean ====
import proofs.«425200_j18691697672407_2_alg».proof.Proof.Gen.Kernel.Launch
import proofs.«425200_j18691697672407_2_alg».proof.Proof.Gen.Kernel.Skeleton
import proofs.«425200_j18691697672407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S1024x1024 := Rect.unit (s := S1024x1024) ![0, 0] S1024x1024.size inb_S1024x1024_S1024x1024_0_0
abbrev rW2 : Rect S1024x512 := Rect.unit (s := S1024x512) ![0, 0] S1024x512.size inb_S1024x512_S1024x512_0_0
abbrev rO2 : Rect S1024x512 := Rect.unit (s := S1024x512) ![0, 0] S1024x512.size inb_S1024x512_S1024x512_0_0

def out2_2 (x0 : Vec F S1024x1024 .bf16) (x1 : Vec F S1024x512 .bf16) : Vec F S1024x512 .bf16 :=
  View.canon [⟨rO2, k2_pay1 (View.ld x0 rX2) (View.ld x1 rW2)⟩]

-- the body leaves the product of its two input blocks in the output block and the inputs as they were
set_option maxHeartbeats 1000000 in
theorem sound_kernel2 (c : Dev nD) (E : Set ℕ) (i : grid2.Coords)
    (arg1 : Memref sig .tc .vmem S1024x1024 .bf16) (harg1 : arg1.IsWhole) (arg2 : Memref sig .tc .vmem S1024x512 .bf16) (harg2 : arg2.IsWhole)
    (arg3 : Memref sig .tc .vmem S1024x512 .bf16) (harg3 : arg3.IsWhole)
    (x0 : Vec F S1024x1024 .bf16) (x1 : Vec F S1024x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x512.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]

theorem before2 (c : Dev nD) (t : Fin cfg2.N) :
    (∀ d, (dat2 V c).before 0 t d = iblk2 V c 0 t) ∧ ∀ d, (dat2 V c).before 1 t d = iblk2 V c 1 t := by
  refine ⟨fun d => ?_, fun d => ?_⟩ <;>
    exact ((dat2 V c).before_in_eq_fetched _ rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t))) := by
  unfold bodyAt2
  simp only [(before2 V c t).1, (before2 V c t).2]
  rw [show (dat2 V c).Φ t.succ = (dat2 V c).Φ t.castSucc from rfl, show (dat2 V c).owesAt () t.succ = (dat2 V c).owesAt () t.castSucc from rfl, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe HΦ Ho H2
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Lin4.lean ====
import proofs.«425200_j18691697672407_2_alg».proof.Proof.Gen.Kernel.Launch
import proofs.«425200_j18691697672407_2_alg».proof.Proof.Gen.Kernel.Skeleton
import proofs.«425200_j18691697672407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rX4 : Rect S1024x1024 := Rect.unit (s := S1024x1024) ![0, 0] S1024x1024.size inb_S1024x1024_S1024x1024_0_0
abbrev rW4 : Rect S1024x256 := Rect.unit (s := S1024x256) ![0, 0] S1024x256.size inb_S1024x256_S1024x256_0_0
abbrev rO4 : Rect S1024x256 := Rect.unit (s := S1024x256) ![0, 0] S1024x256.size inb_S1024x256_S1024x256_0_0

def out4_2 (x0 : Vec F S1024x1024 .bf16) (x1 : Vec F S1024x256 .bf16) : Vec F S1024x256 .bf16 :=
  View.canon [⟨rO4, k4_pay1 (View.ld x0 rX4) (View.ld x1 rW4)⟩]

-- the body leaves the product of its two input blocks in the output block and the inputs as they were
set_option maxHeartbeats 1000000 in
theorem sound_kernel4 (c : Dev nD) (E : Set ℕ) (i : grid4.Coords)
    (arg1 : Memref sig .tc .vmem S1024x1024 .bf16) (harg1 : arg1.IsWhole) (arg2 : Memref sig .tc .vmem S1024x256 .bf16) (harg2 : arg2.IsWhole)
    (arg3 : Memref sig .tc .vmem S1024x256 .bf16) (harg3 : arg3.IsWhole)
    (x0 : Vec F S1024x1024 .bf16) (x1 : Vec F S1024x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4_2 (iblk4 V c 0 t) (iblk4 V c 1 t) := by dsimp only [dat4]

theorem before4 (c : Dev nD) (t : Fin cfg4.N) :
    (∀ d, (dat4 V c).before 0 t d = iblk4 V c 0 t) ∧ ∀ d, (dat4 V c).before 1 t d = iblk4 V c 1 t := by
  refine ⟨fun d => ?_, fun d => ?_⟩ <;>
    exact ((dat4 V c).before_in_eq_fetched _ rfl (fun _ => rfl) (fun _ _ _ => rfl) (fun _ => rfl) t d).trans rfl

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t))) := by
  unfold bodyAt4
  simp only [(before4 V c t).1, (before4 V c t).2]
  rw [show (dat4 V c).Φ t.succ = (dat4 V c).Φ t.castSucc from rfl, show (dat4 V c).owesAt () t.succ = (dat4 V c).owesAt () t.castSucc from rfl, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe HΦ Ho H2
  isplitl [H0]; · iexact H0
  iexact H1

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Agg1.lean ====
import proofs.«425200_j18691697672407_2_alg».proof.Proof.Gen.Kernel.Launch
import proofs.«425200_j18691697672407_2_alg».proof.Proof.Gen.Kernel.Skeleton
import proofs.«425200_j18691697672407_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def reset1 : Vec F S1024x512 .f32 := k1_pay1

def step1 (acc : Vec F S1024x512 .f32) (a : Vec F S1024x1024 .bf16) (s : Vec F S1024x512 .bf16) : Vec F S1024x512 .f32 :=
  k1_pay2 acc a s

-- the sum of a tile's products so far; it starts again at every tenth point
def accAfter1 (c : Dev nD) : (n : ℕ) → n < cfg1.N → Vec F S1024x512 .f32
  | 0, hn => step1 reset1 (iblk1 V c 0 ⟨0, hn⟩) (iblk1 V c 1 ⟨0, hn⟩)
  | n + 1, hn =>
    if (n + 1) % 10 = 0 then step1 reset1 (iblk1 V c 0 ⟨n + 1, hn⟩) (iblk1 V c 1 ⟨n + 1, hn⟩)
    else step1 (accAfter1 c n (Nat.lt_of_succ_lt hn)) (iblk1 V c 0 ⟨n + 1, hn⟩) (iblk1 V c 1 ⟨n + 1, hn⟩)

abbrev rLo1 : Rect S1024x1024 := Rect.unit (s := S1024x1024) ![0, 0] S1024x512.size inb_S1024x1024_S1024x512_0_0
abbrev rHi1 : Rect S1024x1024 := Rect.unit (s := S1024x1024) ![0, 512] S1024x512.size inb_S1024x1024_S1024x512_0_512

def out1_3 (i : grid1.Coords) (acc : Vec F S1024x512 .f32) (b : Vec F S1x512 .f32) : Vec F S1024x1024 .bf16 :=
  View.canon [⟨rHi1, k1_pay5 i acc b⟩, ⟨rLo1, k1_pay4 i acc b⟩]

-- the invariant: past the first of a tile's ten points the accumulator is the sum so far
def Φ1 (c : Dev nD) (t : Fin (cfg1.N + 1)) : sProp 𝕄 :=
  iprop((∃ f : Vec F S1024x512 .f32, owns (c : Thread nD τ) (Memref.whole cc1_scratch0) fullShare f
      ∗ ⌜∀ h : 0 < t.val, t.val % 10 ≠ 0 →
          f = accAfter1 V c (t.val - 1) (Nat.lt_of_lt_of_le (Nat.sub_lt h Nat.one_pos) (Nat.lt_succ_iff.mp t.isLt))⌝)
    ∗ Pipeline.scopedRestBut (Ix := Unit) (Name := ℕ) (U := UR sig nD τ) (Lvl := ℕ) (Val := Elt F) spec1 c [cc1_scratch0]
    ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (accAfter1 V c t.val t.isLt) (iblk1 V c 2 t)
  Φ t := Φ1 V c t
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (grid1.coords t) (accAfter1 V c t.val t.isLt) (iblk1 V c 2 t) := by dsimp only [dat1]
theorem Φ_eq1 (c : Dev nD) (t : Fin (cfg1.N + 1)) : (dat1 V c).Φ t = Φ1 V c t := by dsimp only [dat1]

theorem accAfter1_first (c : Dev nD) (t : Fin cfg1.N) (h : t.val % 10 = 0) :
    accAfter1 V c t.val t.isLt = step1 reset1 (iblk1 V c 0 t) (iblk1 V c 1 t) := by
  obtain ⟨n, hn⟩ := t
  cases n with
  | zero => exact rfl
  | succ n => exact if_pos h
theorem accAfter1_next (c : Dev nD) (t : Fin cfg1.N) (h : t.val % 10 ≠ 0) :
    accAfter1 V c t.val t.isLt
      = step1 (accAfter1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

theorem Φ1_in (c : Dev nD) :
    iprop((∃ r, prngReg c r) ∗ Pipeline.scopedRest (Ix := Unit) (Name := ℕ) (U := UR sig nD τ) (Lvl := ℕ) (Val := Elt F) spec1 c)
      ⊢ (Φ1 V c 0 : sProp 𝕄) := by
  unfold Φ1
  rw [scopedRest1_split]
  iintro ⟨Hr, ⟨%f, Hf⟩, Hrest⟩
  iframe Hrest Hr
  iexists f
  isplitl [Hf]
  · rw [owns_whole]; iexact Hf
  · ipureintro; intro h; exact absurd h (Nat.lt_irrefl 0)

theorem Φ1_out (c : Dev nD) :
    (Φ1 V c (Fin.last cfg1.N) : sProp 𝕄)
      ⊢ iprop((∃ r, prngReg c r) ∗ Pipeline.scopedRest (Ix := Unit) (Name := ℕ) (U := UR sig nD τ) (Lvl := ℕ) (Val := Elt F) spec1 c) := by
  unfold Φ1
  rw [scopedRest1_split]
  simp only [owns_whole]
  iintro ⟨⟨%f, Hf, -⟩, Hrest, Hr⟩
  iframe Hr Hrest
  iexists f; iexact Hf

theorem hz1 : (![0, 0] : Fin 2 → Nat) = fun _ => 0 := funext fun a => by fin_cases a <;> rfl

abbrev cond1_0 (i : grid1.Coords) : Prop := Scalar.cmpi .ne (Scalar.extui (Scalar.cmpi .eq (BitVec.ofNat 32 (i 1).val) 0#32)) 0#32 = 1#1

theorem cover1 (w : Vec F S1024x512 .f32) (L : List (View.Piece (Elt F) S1024x512 .f32)) (y : S1024x512.Idx) :
    ∃ q ∈ (⟨Rect.unit (s := S1024x512) ![0, 0] S1024x512.size inb_S1024x512_S1024x512_0_0, w⟩ : View.Piece (Elt F) S1024x512 .f32) :: L, y ∈ q.1.set :=
  ⟨_, List.Mem.head _, View.mem_set_unit_zero hz1 inb_S1024x512_S1024x512_0_0 y⟩

theorem cover1_3 (pH pL : Vec F S1024x512 .bf16) (y : S1024x1024.Idx) :
    ∃ q ∈ [(⟨rHi1, pH⟩ : View.Piece (Elt F) S1024x1024 .bf16), ⟨rLo1, pL⟩], y ∈ q.1.set :=
  View.cover_of_tiled (s := S1024x1024) [(⟨rHi1, pH⟩ : View.Piece (Elt F) S1024x1024 .bf16), ⟨rLo1, pL⟩] S1024x512.size (by rfl) y

set_option maxHeartbeats 1000000 in
-- all three kinds of point at once: the two conditions say where the sum starts and whether the output tile is made
theorem run1 (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x1024 .bf16) (harg5 : arg5.IsWhole)
    (arg6 : Memref sig .tc .vmem S1024x512 .f32) (harg6 : arg6.IsWhole)
    (hFL : cond1_0 i → ¬ k1_cond2 i = 1#1)
    (a : Vec F S1024x1024 .bf16) (s : Vec F S1024x512 .bf16) (b : Vec F S1x512 .f32) (o : Vec F S1024x1024 .bf16) (f : Vec F S1024x512 .f32)
    (acc' : Vec F S1024x512 .f32) (hacc : step1 (if cond1_0 i then reset1 else f) a s = acc') (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare o ∗ owns (c : Thread nD τ) arg6 fullShare f
        ∗ (iprop(owns (c : Thread nD τ) arg2 fullShare a ∗ owns (c : Thread nD τ) arg3 fullShare s ∗ owns (c : Thread nD τ) arg4 fullShare b
            ∗ owns (c : Thread nD τ) arg5 fullShare (if k1_cond2 i = 1#1 then out1_3 i acc' b else o)
            ∗ owns (c : Thread nD τ) arg6 fullShare acc') -∗ K ⟨⟩))
      ⊢ wp frame (wpE (defs₀ (F := F)) Variants.none c none) E (cc1__agg_concat_kernel i arg2 harg2 arg3 harg3 arg4 harg4 arg5 harg5 arg6 harg6) K := by
  by_cases hcF : cond1_0 i <;> by_cases hcL : k1_cond2 i = 1#1
  · exact absurd hcL (hFL hcF)
  all_goals
    first | rw [if_pos hcF] at hacc | rw [if_neg hcF] at hacc
    first | rw [if_pos hcL] | rw [if_neg hcL]
    simp only [cc1__agg_concat_kernel_eq_skeleton]; unfold cc1__agg_concat_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hcF | exact hcL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | rw [← hacc]
        unfold out1_3 step1
        sl_unfold_words
        rw [View.read_writes_eq_canon _ _ _ (cover1_3 _ _)]
        simp only [View.readCov_unit_zero (S := S1024x512) _ hz1, View.readAt_eq_ld, harg2.read_unread, harg3.read_unread,
          harg4.read_unread, harg6.read_unread,
          View.ld_unit_zero (S := S1024x1024) hz1, View.ld_unit_zero (S := S1024x512) hz1, View.ld_unit_zero (S := S1x512) hz1]
      | exact harg5.read_unread _
    iexists _; isplitr
    swap; · iexact H6
    ipureintro
    rw [← hacc]
    unfold step1
    try unfold reset1
    sl_unfold_words
    rw [View.read_writes_eq_canon _ _ _ (cover1 _ _), View.canon_cons_unit_zero (S := S1024x512) hz1]
    simp only [View.readCov_unit_zero (S := S1024x512) _ hz1, View.readAt_eq_ld, harg2.read_unread, harg3.read_unread, harg6.read_unread,
      View.ld_unit_zero (S := S1024x1024) hz1, View.ld_unit_zero (S := S1024x512) hz1]

theorem hcond1_0 : ∀ t : Fin cfg1.N, cond1_0 (grid1.coords t) ↔ t.val % 10 = 0 := by decide +kernel
theorem hcond1_1 : ∀ t : Fin cfg1.N, k1_cond2 (grid1.coords t) = 1#1 ↔ t.val % 10 = 9 := by decide +kernel
theorem idle1_3 : ∀ t : Fin cfg1.N, cfg1.idle 3 (cfg1.grid.coords t) = true ↔ t.val % 10 ≠ 9 := by decide +kernel

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
    exact ((dat1 V c).before_in_eq_fetched _ rfl (fun _ => rfl) (fun _ _ _ => rfl) (fun _ => rfl) t d).trans rfl

theorem leaves1_3 (c : Dev nD) (t : Fin cfg1.N) (d) :
    owns (c : Thread nD τ) (win1_3.stage (cfg1.slots t 3)) fullShare (if k1_cond2 (grid1.coords t) = 1#1
        then out1_3 (grid1.coords t) (accAfter1 V c t.val t.isLt) (iblk1 V c 2 t) else (dat1 V c).before 3 t d)
      ⊢ ((dat1 V c).leavesExact 3 t : sProp 𝕄) := by
  by_cases h9 : t.val % 10 = 9
  · have hi : cfg1.idle 3 (cfg1.grid.coords t) = false := Bool.eq_false_iff.mpr fun h => (idle1_3 t).mp h h9
    unfold Dat.leavesExact; rw [hi, after1_3, if_pos ((hcond1_1 t).mpr h9)]
  · rw [(dat1 V c).leavesExact_idle 3 t ((idle1_3 t).mpr h9) (Bool.eq_false_iff.mpr fun h => h9 ((flush1_3 t).mp h)),
      if_neg fun h => h9 ((hcond1_1 t).mp h)]
    iintro H; iexists d; iexact H

-- the invariant's sum so far, one step on, is the sum through this point
theorem acc_step1 (c : Dev nD) (t : Fin cfg1.N) (f : Vec F S1024x512 .f32)
    (hf : ∀ h : 0 < t.castSucc.val, t.castSucc.val % 10 ≠ 0 →
      f = accAfter1 V c (t.castSucc.val - 1) (Nat.lt_of_lt_of_le (Nat.sub_lt h Nat.one_pos) (Nat.lt_succ_iff.mp t.castSucc.isLt))) :
    step1 (if cond1_0 (grid1.coords t) then reset1 else f) (iblk1 V c 0 t) (iblk1 V c 1 t) = accAfter1 V c t.val t.isLt := by
  by_cases h0 : t.val % 10 = 0
  · rw [if_pos ((hcond1_0 t).mpr h0)]; exact (accAfter1_first V c t h0).symm
  · rw [if_neg fun h => h0 ((hcond1_0 t).mp h), hf (Nat.pos_of_ne_zero fun e => h0 (by rw [show t.val = 0 from e])) h0]
    exact (accAfter1_next V c t h0).symm

theorem sound_body1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d)))
    ⊢ wp frame (wpE (defs₀ (F := F)) Variants.none c none) Set.univ (bodyAt1 t) (fun _ =>
      iprop(Φ1 V c t.succ ∗ (dat1 V c).owesAt () t.castSucc
        ∗ owns (c : Thread nD τ) (win1_0.stage (cfg1.slots t 0)) fullShare (iblk1 V c 0 t)
        ∗ owns (c : Thread nD τ) (win1_1.stage (cfg1.slots t 1)) fullShare (iblk1 V c 1 t)
        ∗ owns (c : Thread nD τ) (win1_2.stage (cfg1.slots t 2)) fullShare (iblk1 V c 2 t) ∗ (dat1 V c).leavesExact 3 t)) := by
  unfold bodyAt1
  simp only [(before1 V c t).1, (before1 V c t).2.1, (before1 V c t).2.2]
  rw [Φ_eq1]
  unfold Φ1
  iintro ⟨⟨⟨%f, Hs, %hf⟩, Hrest, Hr⟩, Ho, ⟨%da, Ha⟩, ⟨%db, Hb⟩, ⟨%dc, Hc⟩, ⟨%dd, Hd⟩⟩
  iapply (run1 c (grid1.coords t) _ _ _ _ _ _ _ _ _ _
    (fun h h' => by have := (hcond1_0 t).mp h; have := (hcond1_1 t).mp h'; omega)
    (iblk1 V c 0 t) (iblk1 V c 1 t) (iblk1 V c 2 t) _ f _ (acc_step1 V c t f hf) Set.univ _)
  iframe Ha Hb Hc Hd Hs
  iintro ⟨Ha, Hb, Hc, Hd, Hs⟩
  iframe Hrest Hr Ho Ha Hb Hc
  isplitl [Hs]
  · iexists _
    isplitl [Hs]
    · iexact Hs
    · ipureintro; intro _ _; rfl
  iapply (leaves1_3 V c t dd); iexact Hd

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Agg3.lean ====
import proofs.«425200_j18691697672407_2_alg».proof.Proof.Gen.Kernel.Launch
import proofs.«425200_j18691697672407_2_alg».proof.Proof.Gen.Kernel.Skeleton
import proofs.«425200_j18691697672407_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def reset3 : Vec F S1024x512 .f32 := k3_pay1

def step3 (acc : Vec F S1024x512 .f32) (a : Vec F S1024x1024 .bf16) (s : Vec F S1024x512 .bf16) : Vec F S1024x512 .f32 :=
  k3_pay2 acc a s

-- the sum of a tile's products so far; it starts again at every tenth point
def accAfter3 (c : Dev nD) : (n : ℕ) → n < cfg3.N → Vec F S1024x512 .f32
  | 0, hn => step3 reset3 (iblk3 V c 0 ⟨0, hn⟩) (iblk3 V c 1 ⟨0, hn⟩)
  | n + 1, hn =>
    if (n + 1) % 10 = 0 then step3 reset3 (iblk3 V c 0 ⟨n + 1, hn⟩) (iblk3 V c 1 ⟨n + 1, hn⟩)
    else step3 (accAfter3 c n (Nat.lt_of_succ_lt hn)) (iblk3 V c 0 ⟨n + 1, hn⟩) (iblk3 V c 1 ⟨n + 1, hn⟩)

abbrev rLo3 : Rect S1024x1024 := Rect.unit (s := S1024x1024) ![0, 0] S1024x512.size inb_S1024x1024_S1024x512_0_0
abbrev rHi3 : Rect S1024x1024 := Rect.unit (s := S1024x1024) ![0, 512] S1024x512.size inb_S1024x1024_S1024x512_0_512

def out3_3 (i : grid3.Coords) (acc : Vec F S1024x512 .f32) (b : Vec F S1x512 .f32) : Vec F S1024x1024 .bf16 :=
  View.canon [⟨rHi3, k3_pay5 i acc b⟩, ⟨rLo3, k3_pay4 i acc b⟩]

-- the invariant: past the first of a tile's ten points the accumulator is the sum so far
def Φ3 (c : Dev nD) (t : Fin (cfg3.N + 1)) : sProp 𝕄 :=
  iprop((∃ f : Vec F S1024x512 .f32, owns (c : Thread nD τ) (Memref.whole cc3_scratch0) fullShare f
      ∗ ⌜∀ h : 0 < t.val, t.val % 10 ≠ 0 →
          f = accAfter3 V c (t.val - 1) (Nat.lt_of_lt_of_le (Nat.sub_lt h Nat.one_pos) (Nat.lt_succ_iff.mp t.isLt))⌝)
    ∗ Pipeline.scopedRestBut (Ix := Unit) (Name := ℕ) (U := UR sig nD τ) (Lvl := ℕ) (Val := Elt F) spec3 c [cc3_scratch0]
    ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (grid3.coords t) (accAfter3 V c t.val t.isLt) (iblk3 V c 2 t)
  Φ t := Φ3 V c t
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) :
    (dat3 V c).after 3 t = out3_3 (grid3.coords t) (accAfter3 V c t.val t.isLt) (iblk3 V c 2 t) := by dsimp only [dat3]
theorem Φ_eq3 (c : Dev nD) (t : Fin (cfg3.N + 1)) : (dat3 V c).Φ t = Φ3 V c t := by dsimp only [dat3]

theorem accAfter3_first (c : Dev nD) (t : Fin cfg3.N) (h : t.val % 10 = 0) :
    accAfter3 V c t.val t.isLt = step3 reset3 (iblk3 V c 0 t) (iblk3 V c 1 t) := by
  obtain ⟨n, hn⟩ := t
  cases n with
  | zero => exact rfl
  | succ n => exact if_pos h
theorem accAfter3_next (c : Dev nD) (t : Fin cfg3.N) (h : t.val % 10 ≠ 0) :
    accAfter3 V c t.val t.isLt
      = step3 (accAfter3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

theorem Φ3_in (c : Dev nD) :
    iprop((∃ r, prngReg c r) ∗ Pipeline.scopedRest (Ix := Unit) (Name := ℕ) (U := UR sig nD τ) (Lvl := ℕ) (Val := Elt F) spec3 c)
      ⊢ (Φ3 V c 0 : sProp 𝕄) := by
  unfold Φ3
  rw [scopedRest3_split]
  iintro ⟨Hr, ⟨%f, Hf⟩, Hrest⟩
  iframe Hrest Hr
  iexists f
  isplitl [Hf]
  · rw [owns_whole]; iexact Hf
  · ipureintro; intro h; exact absurd h (Nat.lt_irrefl 0)

theorem Φ3_out (c : Dev nD) :
    (Φ3 V c (Fin.last cfg3.N) : sProp 𝕄)
      ⊢ iprop((∃ r, prngReg c r) ∗ Pipeline.scopedRest (Ix := Unit) (Name := ℕ) (U := UR sig nD τ) (Lvl := ℕ) (Val := Elt F) spec3 c) := by
  unfold Φ3
  rw [scopedRest3_split]
  simp only [owns_whole]
  iintro ⟨⟨%f, Hf, -⟩, Hrest, Hr⟩
  iframe Hr Hrest
  iexists f; iexact Hf

theorem hz3 : (![0, 0] : Fin 2 → Nat) = fun _ => 0 := funext fun a => by fin_cases a <;> rfl

abbrev cond3_0 (i : grid3.Coords) : Prop := Scalar.cmpi .ne (Scalar.extui (Scalar.cmpi .eq (BitVec.ofNat 32 (i 1).val) 0#32)) 0#32 = 1#1

theorem cover3 (w : Vec F S1024x512 .f32) (L : List (View.Piece (Elt F) S1024x512 .f32)) (y : S1024x512.Idx) :
    ∃ q ∈ (⟨Rect.unit (s := S1024x512) ![0, 0] S1024x512.size inb_S1024x512_S1024x512_0_0, w⟩ : View.Piece (Elt F) S1024x512 .f32) :: L, y ∈ q.1.set :=
  ⟨_, List.Mem.head _, View.mem_set_unit_zero hz3 inb_S1024x512_S1024x512_0_0 y⟩

theorem cover3_3 (pH pL : Vec F S1024x512 .bf16) (y : S1024x1024.Idx) :
    ∃ q ∈ [(⟨rHi3, pH⟩ : View.Piece (Elt F) S1024x1024 .bf16), ⟨rLo3, pL⟩], y ∈ q.1.set :=
  View.cover_of_tiled (s := S1024x1024) [(⟨rHi3, pH⟩ : View.Piece (Elt F) S1024x1024 .bf16), ⟨rLo3, pL⟩] S1024x512.size (by rfl) y

set_option maxHeartbeats 1000000 in
-- all three kinds of point at once: the two conditions say where the sum starts and whether the output tile is made
theorem run3 (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x1024 .bf16) (harg5 : arg5.IsWhole)
    (arg6 : Memref sig .tc .vmem S1024x512 .f32) (harg6 : arg6.IsWhole)
    (hFL : cond3_0 i → ¬ k3_cond2 i = 1#1)
    (a : Vec F S1024x1024 .bf16) (s : Vec F S1024x512 .bf16) (b : Vec F S1x512 .f32) (o : Vec F S1024x1024 .bf16) (f : Vec F S1024x512 .f32)
    (acc' : Vec F S1024x512 .f32) (hacc : step3 (if cond3_0 i then reset3 else f) a s = acc') (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare o ∗ owns (c : Thread nD τ) arg6 fullShare f
        ∗ (iprop(owns (c : Thread nD τ) arg2 fullShare a ∗ owns (c : Thread nD τ) arg3 fullShare s ∗ owns (c : Thread nD τ) arg4 fullShare b
            ∗ owns (c : Thread nD τ) arg5 fullShare (if k3_cond2 i = 1#1 then out3_3 i acc' b else o)
            ∗ owns (c : Thread nD τ) arg6 fullShare acc') -∗ K ⟨⟩))
      ⊢ wp frame (wpE (defs₀ (F := F)) Variants.none c none) E (cc3__agg_concat_kernel i arg2 harg2 arg3 harg3 arg4 harg4 arg5 harg5 arg6 harg6) K := by
  by_cases hcF : cond3_0 i <;> by_cases hcL : k3_cond2 i = 1#1
  · exact absurd hcL (hFL hcF)
  all_goals
    first | rw [if_pos hcF] at hacc | rw [if_neg hcF] at hacc
    first | rw [if_pos hcL] | rw [if_neg hcL]
    simp only [cc3__agg_concat_kernel_eq_skeleton]; unfold cc3__agg_concat_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hcF | exact hcL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | rw [← hacc]
        unfold out3_3 step3
        sl_unfold_words
        rw [View.read_writes_eq_canon _ _ _ (cover3_3 _ _)]
        simp only [View.readCov_unit_zero (S := S1024x512) _ hz3, View.readAt_eq_ld, harg2.read_unread, harg3.read_unread,
          harg4.read_unread, harg6.read_unread,
          View.ld_unit_zero (S := S1024x1024) hz3, View.ld_unit_zero (S := S1024x512) hz3, View.ld_unit_zero (S := S1x512) hz3]
      | exact harg5.read_unread _
    iexists _; isplitr
    swap; · iexact H6
    ipureintro
    rw [← hacc]
    unfold step3
    try unfold reset3
    sl_unfold_words
    rw [View.read_writes_eq_canon _ _ _ (cover3 _ _), View.canon_cons_unit_zero (S := S1024x512) hz3]
    simp only [View.readCov_unit_zero (S := S1024x512) _ hz3, View.readAt_eq_ld, harg2.read_unread, harg3.read_unread, harg6.read_unread,
      View.ld_unit_zero (S := S1024x1024) hz3, View.ld_unit_zero (S := S1024x512) hz3]

theorem hcond3_0 : ∀ t : Fin cfg3.N, cond3_0 (grid3.coords t) ↔ t.val % 10 = 0 := by decide +kernel
theorem hcond3_1 : ∀ t : Fin cfg3.N, k3_cond2 (grid3.coords t) = 1#1 ↔ t.val % 10 = 9 := by decide +kernel
theorem idle3_3 : ∀ t : Fin cfg3.N, cfg3.idle 3 (cfg3.grid.coords t) = true ↔ t.val % 10 ≠ 9 := by decide +kernel

theorem before3 (c : Dev nD) (t : Fin cfg3.N) :
    (∀ d, (dat3 V c).before 0 t d = iblk3 V c 0 t) ∧ (∀ d, (dat3 V c).before 1 t d = iblk3 V c 1 t)
      ∧ ∀ d, (dat3 V c).before 2 t d = iblk3 V c 2 t := by
  refine ⟨fun d => ?_, fun d => ?_, fun d => ?_⟩ <;>
    exact ((dat3 V c).before_in_eq_fetched _ rfl (fun _ => rfl) (fun _ _ _ => rfl) (fun _ => rfl) t d).trans rfl

theorem leaves3_3 (c : Dev nD) (t : Fin cfg3.N) (d) :
    owns (c : Thread nD τ) (win3_3.stage (cfg3.slots t 3)) fullShare (if k3_cond2 (grid3.coords t) = 1#1
        then out3_3 (grid3.coords t) (accAfter3 V c t.val t.isLt) (iblk3 V c 2 t) else (dat3 V c).before 3 t d)
      ⊢ ((dat3 V c).leavesExact 3 t : sProp 𝕄) := by
  by_cases h9 : t.val % 10 = 9
  · have hi : cfg3.idle 3 (cfg3.grid.coords t) = false := Bool.eq_false_iff.mpr fun h => (idle3_3 t).mp h h9
    unfold Dat.leavesExact; rw [hi, after3_3, if_pos ((hcond3_1 t).mpr h9)]
  · rw [(dat3 V c).leavesExact_idle 3 t ((idle3_3 t).mpr h9) (Bool.eq_false_iff.mpr fun h => h9 ((flush3_3 t).mp h)),
      if_neg fun h => h9 ((hcond3_1 t).mp h)]
    iintro H; iexists d; iexact H

-- the invariant's sum so far, one step on, is the sum through this point
theorem acc_step3 (c : Dev nD) (t : Fin cfg3.N) (f : Vec F S1024x512 .f32)
    (hf : ∀ h : 0 < t.castSucc.val, t.castSucc.val % 10 ≠ 0 →
      f = accAfter3 V c (t.castSucc.val - 1) (Nat.lt_of_lt_of_le (Nat.sub_lt h Nat.one_pos) (Nat.lt_succ_iff.mp t.castSucc.isLt))) :
    step3 (if cond3_0 (grid3.coords t) then reset3 else f) (iblk3 V c 0 t) (iblk3 V c 1 t) = accAfter3 V c t.val t.isLt := by
  by_cases h0 : t.val % 10 = 0
  · rw [if_pos ((hcond3_0 t).mpr h0)]; exact (accAfter3_first V c t h0).symm
  · rw [if_neg fun h => h0 ((hcond3_0 t).mp h), hf (Nat.pos_of_ne_zero fun e => h0 (by rw [show t.val = 0 from e])) h0]
    exact (accAfter3_next V c t h0).symm

theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (win3_3.stage (cfg3.slots t 3)) fullShare ((dat3 V c).before 3 t d)))
    ⊢ wp frame (wpE (defs₀ (F := F)) Variants.none c none) Set.univ (bodyAt3 t) (fun _ =>
      iprop(Φ3 V c t.succ ∗ (dat3 V c).owesAt () t.castSucc
        ∗ owns (c : Thread nD τ) (win3_0.stage (cfg3.slots t 0)) fullShare (iblk3 V c 0 t)
        ∗ owns (c : Thread nD τ) (win3_1.stage (cfg3.slots t 1)) fullShare (iblk3 V c 1 t)
        ∗ owns (c : Thread nD τ) (win3_2.stage (cfg3.slots t 2)) fullShare (iblk3 V c 2 t) ∗ (dat3 V c).leavesExact 3 t)) := by
  unfold bodyAt3
  simp only [(before3 V c t).1, (before3 V c t).2.1, (before3 V c t).2.2]
  rw [Φ_eq3]
  unfold Φ3
  iintro ⟨⟨⟨%f, Hs, %hf⟩, Hrest, Hr⟩, Ho, ⟨%da, Ha⟩, ⟨%db, Hb⟩, ⟨%dc, Hc⟩, ⟨%dd, Hd⟩⟩
  iapply (run3 c (grid3.coords t) _ _ _ _ _ _ _ _ _ _
    (fun h h' => by have := (hcond3_0 t).mp h; have := (hcond3_1 t).mp h'; omega)
    (iblk3 V c 0 t) (iblk3 V c 1 t) (iblk3 V c 2 t) _ f _ (acc_step3 V c t f hf) Set.univ _)
  iframe Ha Hb Hc Hd Hs
  iintro ⟨Ha, Hb, Hc, Hd, Hs⟩
  iframe Hrest Hr Ho Ha Hb Hc
  isplitl [Hs]
  · iexists _
    isplitl [Hs]
    · iexact Hs
    · ipureintro; intro _ _; rfl
  iapply (leaves3_3 V c t dd); iexact Hd

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Agg5.lean ====
import proofs.«425200_j18691697672407_2_alg».proof.Proof.Gen.Kernel.Launch
import proofs.«425200_j18691697672407_2_alg».proof.Proof.Gen.Kernel.Skeleton
import proofs.«425200_j18691697672407_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def reset5 : Vec F S1024x256 .f32 := k5_pay1

def step5 (acc : Vec F S1024x256 .f32) (a : Vec F S1024x1024 .bf16) (s : Vec F S1024x256 .bf16) : Vec F S1024x256 .f32 :=
  k5_pay2 acc a s

-- the sum of a tile's products so far; it starts again at every tenth point
def accAfter5 (c : Dev nD) : (n : ℕ) → n < cfg5.N → Vec F S1024x256 .f32
  | 0, hn => step5 reset5 (iblk5 V c 0 ⟨0, hn⟩) (iblk5 V c 1 ⟨0, hn⟩)
  | n + 1, hn =>
    if (n + 1) % 10 = 0 then step5 reset5 (iblk5 V c 0 ⟨n + 1, hn⟩) (iblk5 V c 1 ⟨n + 1, hn⟩)
    else step5 (accAfter5 c n (Nat.lt_of_succ_lt hn)) (iblk5 V c 0 ⟨n + 1, hn⟩) (iblk5 V c 1 ⟨n + 1, hn⟩)

abbrev rO5 : Rect S1024x256 := Rect.unit (s := S1024x256) ![0, 0] S1024x256.size inb_S1024x256_S1024x256_0_0

def out5_3 (i : grid5.Coords) (acc : Vec F S1024x256 .f32) (b : Vec F S1x256 .f32) : Vec F S1024x256 .f32 :=
  View.canon [⟨rO5, k5_pay3 i acc b⟩]

-- the invariant: past the first of a tile's ten points the accumulator is the sum so far
def Φ5 (c : Dev nD) (t : Fin (cfg5.N + 1)) : sProp 𝕄 :=
  iprop((∃ f : Vec F S1024x256 .f32, owns (c : Thread nD τ) (Memref.whole cc5_scratch0) fullShare f
      ∗ ⌜∀ h : 0 < t.val, t.val % 10 ≠ 0 →
          f = accAfter5 V c (t.val - 1) (Nat.lt_of_lt_of_le (Nat.sub_lt h Nat.one_pos) (Nat.lt_succ_iff.mp t.isLt))⌝)
    ∗ Pipeline.scopedRestBut (Ix := Unit) (Name := ℕ) (U := UR sig nD τ) (Lvl := ℕ) (Val := Elt F) spec5 c [cc5_scratch0]
    ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (grid5.coords t) (accAfter5 V c t.val t.isLt) (iblk5 V c 2 t)
  Φ t := Φ5 V c t
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) :
    (dat5 V c).after 3 t = out5_3 (grid5.coords t) (accAfter5 V c t.val t.isLt) (iblk5 V c 2 t) := by dsimp only [dat5]
theorem Φ_eq5 (c : Dev nD) (t : Fin (cfg5.N + 1)) : (dat5 V c).Φ t = Φ5 V c t := by dsimp only [dat5]

theorem accAfter5_first (c : Dev nD) (t : Fin cfg5.N) (h : t.val % 10 = 0) :
    accAfter5 V c t.val t.isLt = step5 reset5 (iblk5 V c 0 t) (iblk5 V c 1 t) := by
  obtain ⟨n, hn⟩ := t
  cases n with
  | zero => exact rfl
  | succ n => exact (if_pos h).trans rfl
theorem accAfter5_next (c : Dev nD) (t : Fin cfg5.N) (h : t.val % 10 ≠ 0) :
    accAfter5 V c t.val t.isLt
      = step5 (accAfter5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact (if_neg h).trans rfl

theorem Φ5_in (c : Dev nD) :
    iprop((∃ r, prngReg c r) ∗ Pipeline.scopedRest (Ix := Unit) (Name := ℕ) (U := UR sig nD τ) (Lvl := ℕ) (Val := Elt F) spec5 c)
      ⊢ (Φ5 V c 0 : sProp 𝕄) := by
  rw [scopedRest5_split]
  unfold Φ5
  iintro ⟨Hr, ⟨%f, Hf⟩, Hrest⟩
  iframe Hrest Hr
  iexists f
  isplitl [Hf]
  · rw [owns_whole]; iexact Hf
  · ipureintro; intro h; exact absurd h (lt_irrefl 0)

theorem Φ5_out (c : Dev nD) :
    (Φ5 V c (Fin.last cfg5.N) : sProp 𝕄)
      ⊢ iprop((∃ r, prngReg c r) ∗ Pipeline.scopedRest (Ix := Unit) (Name := ℕ) (U := UR sig nD τ) (Lvl := ℕ) (Val := Elt F) spec5 c) := by
  rw [scopedRest5_split]
  unfold Φ5
  simp only [owns_whole]
  iintro ⟨⟨%f, Hf, -⟩, Hrest, Hr⟩
  iframe Hr Hrest
  iexists f; iexact Hf

abbrev cond5_0 (i : grid5.Coords) : Prop :=
  (Scalar.cmpi .ne (Scalar.extui (Scalar.cmpi .eq (BitVec.ofNat 32 (i 1).val) 0#32)) 0#32) = 1#1

theorem hcond5_0 : ∀ t : Fin cfg5.N, cond5_0 (grid5.coords t) ↔ t.val % 10 = 0 := by decide +kernel

theorem hcond5_1 : ∀ t : Fin cfg5.N, k5_cond2 (grid5.coords t) = 1#1 ↔ t.val % 10 = 9 := by decide +kernel

theorem hz5 : (![0, 0] : Fin 2 → Nat) = fun _ => 0 := funext fun a => by fin_cases a <;> rfl

theorem cover5 {e : EltTy} (p : View.Piece (Elt F) S1024x256 e) (hp : p.1 = rO5) (L : List (View.Piece (Elt F) S1024x256 e))
    (y : S1024x256.Idx) : ∃ q ∈ p :: L, y ∈ q.1.set :=
  ⟨p, List.mem_cons.mpr (Or.inl rfl), by rw [hp]; exact View.mem_set_unit_zero hz5 inb_S1024x256_S1024x256_0_0 y⟩

set_option maxHeartbeats 1000000 in
-- all three kinds of point at once: the two conditions say where the sum starts and whether the output tile is made
theorem run5 (c : Dev nD) (i : grid5.Coords)
    (arg2 : Memref sig .tc .vmem S1024x1024 .bf16) (harg2 : arg2.IsWhole)
    (arg3 : Memref sig .tc .vmem S1024x256 .bf16) (harg3 : arg3.IsWhole)
    (arg4 : Memref sig .tc .vmem S1x256 .f32) (harg4 : arg4.IsWhole)
    (arg5 : Memref sig .tc .vmem S1024x256 .f32) (harg5 : arg5.IsWhole)
    (arg6 : Memref sig .tc .vmem S1024x256 .f32) (harg6 : arg6.IsWhole)
    (hFL : cond5_0 i → ¬ k5_cond2 i = 1#1)
    (a : Vec F S1024x1024 .bf16) (s : Vec F S1024x256 .bf16) (b : Vec F S1x256 .f32) (o : Vec F S1024x256 .f32) (f : Vec F S1024x256 .f32)
    (acc' : Vec F S1024x256 .f32) (hacc : step5 (if cond5_0 i then reset5 else f) a s = acc') (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare o ∗ owns (c : Thread nD τ) arg6 fullShare f
        ∗ (iprop(owns (c : Thread nD τ) arg2 fullShare a ∗ owns (c : Thread nD τ) arg3 fullShare s ∗ owns (c : Thread nD τ) arg4 fullShare b
            ∗ owns (c : Thread nD τ) arg5 fullShare (if k5_cond2 i = 1#1 then out5_3 i acc' b else o)
            ∗ owns (c : Thread nD τ) arg6 fullShare acc') -∗ K ⟨⟩))
      ⊢ wp frame (wpE (defs₀ (F := F)) Variants.none c none) E (cc5__agg_final_kernel i arg2 harg2 arg3 harg3 arg4 harg4 arg5 harg5 arg6 harg6) K := by
  by_cases hcF : cond5_0 i <;> by_cases hcL : k5_cond2 i = 1#1
  · exact absurd hcL (hFL hcF)
  all_goals
    first | rw [if_pos hcF] at hacc | rw [if_neg hcF] at hacc
    first | rw [if_pos hcL] | rw [if_neg hcL]
    simp only [cc5__agg_final_kernel_eq_skeleton]; unfold cc5__agg_final_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hcF | exact hcL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | rw [← hacc]
        sl_unfold_words
        unfold out5_3 step5
        rw [View.read_writes_eq_canon _ _ _ (cover5 _ rfl _)]
        simp only [View.readCov_unit_zero (S := S1024x256) _ hz5, View.readAt_eq_ld,
          harg6.read_unread, harg2.read_unread, harg3.read_unread, harg4.read_unread,
          View.ld_unit_zero (S := S1024x256) hz5, View.ld_unit_zero (S := S1024x1024) hz5, View.ld_unit_zero (S := S1x256) hz5]
      | exact harg5.read_unread _
    iexists _; isplitr
    swap; · iexact H6
    ipureintro
    rw [← hacc]
    sl_unfold_words
    unfold step5
    try unfold reset5
    rw [View.read_writes_eq_canon _ _ _ (cover5 _ rfl _), View.canon_cons_unit_zero hz5]
    simp only [View.readCov_unit_zero (S := S1024x256) _ hz5, View.readAt_eq_ld,
      harg6.read_unread, harg2.read_unread, harg3.read_unread, harg4.read_unread,
      View.ld_unit_zero (S := S1024x256) hz5, View.ld_unit_zero (S := S1024x1024) hz5, View.ld_unit_zero (S := S1x256) hz5]

theorem idle5_3_off : ∀ t : Fin cfg5.N, t.val % 10 ≠ 9 → cfg5.idle 3 (grid5.coords t) = true := by decide +kernel
theorem idle5_3_on : ∀ t : Fin cfg5.N, t.val % 10 = 9 → cfg5.idle 3 (grid5.coords t) = false := by decide +kernel

theorem before5 (c : Dev nD) (t : Fin cfg5.N) :
    (∀ d, (dat5 V c).before 0 t d = iblk5 V c 0 t) ∧ (∀ d, (dat5 V c).before 1 t d = iblk5 V c 1 t)
      ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

theorem leaves5_3 (c : Dev nD) (t : Fin cfg5.N) (d) :
    owns (c : Thread nD τ) (win5_3.stage (cfg5.slots t 3)) fullShare (if k5_cond2 (grid5.coords t) = 1#1
        then out5_3 (grid5.coords t) (accAfter5 V c t.val t.isLt) (iblk5 V c 2 t) else (dat5 V c).before 3 t d)
      ⊢ ((dat5 V c).leavesExact 3 t : sProp 𝕄) := by
  by_cases h9 : t.val % 10 = 9
  · unfold Dat.leavesExact; rw [idle5_3_on t h9, after5_3, if_pos ((hcond5_1 t).mpr h9)]
  · rw [(dat5 V c).leavesExact_idle 3 t (idle5_3_off t h9) (Bool.eq_false_iff.mpr fun h => h9 ((flush5_3 t).mp h)),
      if_neg fun h => h9 ((hcond5_1 t).mp h)]
    iintro H; iexists d; iexact H

-- the invariant's sum so far, one step on, is the sum through this point
theorem acc_step5 (c : Dev nD) (t : Fin cfg5.N) (f : Vec F S1024x256 .f32)
    (hf : ∀ h : 0 < t.castSucc.val, t.castSucc.val % 10 ≠ 0 →
      f = accAfter5 V c (t.castSucc.val - 1) (Nat.lt_of_lt_of_le (Nat.sub_lt h Nat.one_pos) (Nat.lt_succ_iff.mp t.castSucc.isLt))) :
    step5 (if cond5_0 (grid5.coords t) then reset5 else f) (iblk5 V c 0 t) (iblk5 V c 1 t) = accAfter5 V c t.val t.isLt := by
  by_cases h0 : t.val % 10 = 0
  · rw [if_pos ((hcond5_0 t).mpr h0)]; exact (accAfter5_first V c t h0).symm
  · rw [if_neg fun h => h0 ((hcond5_0 t).mp h), hf (Nat.pos_of_ne_zero fun e => h0 (by rw [show t.val = 0 from e])) h0]
    exact (accAfter5_next V c t h0).symm

theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d))
      ∗ (∃ d, owns (c : Thread nD τ) (win5_3.stage (cfg5.slots t 3)) fullShare ((dat5 V c).before 3 t d)))
    ⊢ wp frame (wpE (defs₀ (F := F)) Variants.none c none) Set.univ (bodyAt5 t) (fun _ =>
      iprop(Φ5 V c t.succ ∗ (dat5 V c).owesAt () t.castSucc
        ∗ owns (c : Thread nD τ) (win5_0.stage (cfg5.slots t 0)) fullShare (iblk5 V c 0 t)
        ∗ owns (c : Thread nD τ) (win5_1.stage (cfg5.slots t 1)) fullShare (iblk5 V c 1 t)
        ∗ owns (c : Thread nD τ) (win5_2.stage (cfg5.slots t 2)) fullShare (iblk5 V c 2 t) ∗ (dat5 V c).leavesExact 3 t)) := by
  unfold bodyAt5
  simp only [(before5 V c t).1, (before5 V c t).2.1, (before5 V c t).2.2]
  rw [Φ_eq5]
  unfold Φ5
  iintro ⟨⟨⟨%f, Hs, %hf⟩, Hrest, Hr⟩, Ho, ⟨%da, Ha⟩, ⟨%db, Hb⟩, ⟨%dc, Hc⟩, ⟨%dd, Hd⟩⟩
  iapply (run5 c (grid5.coords t) _ _ _ _ _ _ _ _ _ _
    (fun h h' => by have := (hcond5_0 t).mp h; have := (hcond5_1 t).mp h'; omega)
    (iblk5 V c 0 t) (iblk5 V c 1 t) (iblk5 V c 2 t) _ f _ (acc_step5 V c t f hf) Set.univ _)
  iframe Ha Hb Hc Hd Hs
  iintro ⟨Ha, Hb, Hc, Hd, Hs⟩
  iframe Hrest Hr Ho Ha Hb Hc
  isplitl [Hs]
  · iexists _
    isplitl [Hs]
    · iexact Hs
    · ipureintro; intro _ _; rfl
  iapply (leaves5_3 V c t dd); iexact Hd

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
import proofs.«425200_j18691697672407_2_alg».proof.Proof.K.Lin0
import proofs.«425200_j18691697672407_2_alg».proof.Proof.K.Lin2
import proofs.«425200_j18691697672407_2_alg».proof.Proof.K.Lin4
import proofs.«425200_j18691697672407_2_alg».proof.Proof.K.Agg1
import proofs.«425200_j18691697672407_2_alg».proof.Proof.K.Agg3
import proofs.«425200_j18691697672407_2_alg».proof.Proof.K.Agg5
import proofs.«425200_j18691697672407_2_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev W3 (c : Dev nD) : Valuation τ sig (Elt F) := V3 m c
def W4 (c : Dev nD) : Valuation τ sig (Elt F) :=
  Function.update (W3 m c) main_v24 ((dat0 (fun c b => W3 m c b) c).arrAt 2 cfg0.N)
def W5 (c : Dev nD) : Valuation τ sig (Elt F) :=
  Function.update (W4 m c) main_v25 ((dat1 (fun c b => W4 m c b) c).arrAt 3 cfg1.N)
def W6 (c : Dev nD) : Valuation τ sig (Elt F) :=
  Function.update (W5 m c) main_v26 ((dat2 (fun c b => W5 m c b) c).arrAt 2 cfg2.N)
def W7 (c : Dev nD) : Valuation τ sig (Elt F) :=
  Function.update (W6 m c) main_v27 ((dat3 (fun c b => W6 m c b) c).arrAt 3 cfg3.N)
def W8 (c : Dev nD) : Valuation τ sig (Elt F) :=
  Function.update (W7 m c) main_v28 ((dat4 (fun c b => W7 m c b) c).arrAt 2 cfg4.N)
def W9 (c : Dev nD) : Valuation τ sig (Elt F) :=
  Function.update (W8 m c) main_v29 ((dat5 (fun c b => W8 m c b) c).arrAt 3 cfg5.N)
def W10 (c : Dev nD) : Valuation τ sig (Elt F) := StableHlo.after hostOps6 (W9 m c)

theorem W4_out (c : Dev nD) : W4 m c main_v24 = (dat0 (fun c b => W3 m c b) c).arrAt 2 cfg0.N := Function.update_self ..
theorem W5_out (c : Dev nD) : W5 m c main_v25 = (dat1 (fun c b => W4 m c b) c).arrAt 3 cfg1.N := Function.update_self ..
theorem W6_out (c : Dev nD) : W6 m c main_v26 = (dat2 (fun c b => W5 m c b) c).arrAt 2 cfg2.N := Function.update_self ..
theorem W7_out (c : Dev nD) : W7 m c main_v27 = (dat3 (fun c b => W6 m c b) c).arrAt 3 cfg3.N := Function.update_self ..
theorem W8_out (c : Dev nD) : W8 m c main_v28 = (dat4 (fun c b => W7 m c b) c).arrAt 2 cfg4.N := Function.update_self ..
theorem W9_out (c : Dev nD) : W9 m c main_v29 = (dat5 (fun c b => W8 m c b) c).arrAt 3 cfg5.N := Function.update_self ..

/-- A valuation updated at one reference is unchanged at every other. -/
theorem upd_of {V : Valuation τ sig (Elt F)} {r b : Ref sig .tc} {x} (h : b ∉ ([r] : List (Ref sig .tc))) :
    Function.update V r x b = V b :=
  Function.update_of_ne (StableHlo.devRef_ne_of_ne (List.ne_of_not_mem_cons h)) ..
theorem W4_of (c : Dev nD) (b : Ref sig .tc) (h : b ∉ ([main_v24] : List (Ref sig .tc))) : W4 m c b = W3 m c b := upd_of h
theorem W5_of (c : Dev nD) (b : Ref sig .tc) (h : b ∉ ([main_v25] : List (Ref sig .tc))) : W5 m c b = W4 m c b := upd_of h
theorem W6_of (c : Dev nD) (b : Ref sig .tc) (h : b ∉ ([main_v26] : List (Ref sig .tc))) : W6 m c b = W5 m c b := upd_of h
theorem W7_of (c : Dev nD) (b : Ref sig .tc) (h : b ∉ ([main_v27] : List (Ref sig .tc))) : W7 m c b = W6 m c b := upd_of h
theorem W8_of (c : Dev nD) (b : Ref sig .tc) (h : b ∉ ([main_v28] : List (Ref sig .tc))) : W8 m c b = W7 m c b := upd_of h
theorem W9_of (c : Dev nD) (b : Ref sig .tc) (h : b ∉ ([main_v29] : List (Ref sig .tc))) : W9 m c b = W8 m c b := upd_of h

def outs : Outs (F := F) := fun J r c =>
  match J with
  | 4 => W4 m c r
  | 5 => W5 m c r
  | 6 => W6 m c r
  | 7 => W7 m c r
  | 8 => W8 m c r
  | 9 => W9 m c r
  | _ => W3 m c r

/-- Updating at `r` with the value an update at `r` already has there gives that update. -/
theorem upd_eq {V V' : Valuation τ sig (Elt F)} (h : V = V') (r : DevRef τ sig) (x : r.ty.Contents (Elt F)) :
    Function.update V r (Function.update V' r x r) = Function.update V' r x := by rw [h, Function.update_self]
theorem V4_eq (c : Dev nD) : V4 m (outs m) c = W4 m c := upd_eq rfl ..
theorem V5_eq (c : Dev nD) : V5 m (outs m) c = W5 m c := upd_eq (V4_eq m c) ..
theorem V6_eq (c : Dev nD) : V6 m (outs m) c = W6 m c := upd_eq (V5_eq m c) ..
theorem V7_eq (c : Dev nD) : V7 m (outs m) c = W7 m c := upd_eq (V6_eq m c) ..
theorem V8_eq (c : Dev nD) : V8 m (outs m) c = W8 m c := upd_eq (V7_eq m c) ..
theorem V9_eq (c : Dev nD) : V9 m (outs m) c = W9 m c := upd_eq (V8_eq m c) ..
theorem V10_eq (c : Dev nD) : V10 m (outs m) c = W10 m c := congrArg (StableHlo.after hostOps6) (V9_eq m c)

theorem W10_main_arg0 (c : Dev nD) : W10 m c main_arg0 = m ((c : Thread nD τ).loc main_arg0) := V10_eq m c ▸ V10_main_arg0 m (outs m) c
theorem W10_main_arg1 (c : Dev nD) : W10 m c main_arg1 = m ((c : Thread nD τ).loc main_arg1) := V10_eq m c ▸ V10_main_arg1 m (outs m) c
theorem W10_main_arg2 (c : Dev nD) : W10 m c main_arg2 = m ((c : Thread nD τ).loc main_arg2) := V10_eq m c ▸ V10_main_arg2 m (outs m) c
theorem W10_main_arg3 (c : Dev nD) : W10 m c main_arg3 = m ((c : Thread nD τ).loc main_arg3) := V10_eq m c ▸ V10_main_arg3 m (outs m) c
theorem W10_main_arg4 (c : Dev nD) : W10 m c main_arg4 = m ((c : Thread nD τ).loc main_arg4) := V10_eq m c ▸ V10_main_arg4 m (outs m) c
theorem W10_main_arg5 (c : Dev nD) : W10 m c main_arg5 = m ((c : Thread nD τ).loc main_arg5) := V10_eq m c ▸ V10_main_arg5 m (outs m) c
theorem W10_main_arg6 (c : Dev nD) : W10 m c main_arg6 = m ((c : Thread nD τ).loc main_arg6) := V10_eq m c ▸ V10_main_arg6 m (outs m) c
theorem W10_main_arg7 (c : Dev nD) : W10 m c main_arg7 = m ((c : Thread nD τ).loc main_arg7) := V10_eq m c ▸ V10_main_arg7 m (outs m) c
theorem W10_main_arg8 (c : Dev nD) : W10 m c main_arg8 = m ((c : Thread nD τ).loc main_arg8) := V10_eq m c ▸ V10_main_arg8 m (outs m) c
theorem W10_main_arg9 (c : Dev nD) : W10 m c main_arg9 = m ((c : Thread nD τ).loc main_arg9) := V10_eq m c ▸ V10_main_arg9 m (outs m) c

def pdats : (p : Fin 6) → (c : Dev nD) → Dat τ (Elt F) Unit ℕ (UR sig nD τ) ℕ (Pipeline.pin (pcfgs (F := F)) adm p) c
  | ⟨0, _⟩ => fun c => dat0 (fun c b => W3 m c b) c
  | ⟨1, _⟩ => fun c => dat1 (fun c b => W4 m c b) c
  | ⟨2, _⟩ => fun c => dat2 (fun c b => W5 m c b) c
  | ⟨3, _⟩ => fun c => dat3 (fun c b => W6 m c b) c
  | ⟨4, _⟩ => fun c => dat4 (fun c b => W7 m c b) c
  | ⟨5, _⟩ => fun c => dat5 (fun c b => W8 m c b) c

abbrev L₀ : GSem nD τ sig → Finset Unit := fun _ => ∅
abbrev lv₀ : GSem nD τ sig → Unit → ℕ := fun _ _ => 0

abbrev R (c : Dev nD) : sProp 𝕄 :=
  iprop((∃ r, prngReg c r) ∗ ∃ W, owes (c : Thread nD τ) (0 : CellTallies nD τ sig Unit) W)

set_option backward.isDefEq.respectTransparency.types false in
/-- Region `p` as a segment from contents `Vi` to contents `Vo`, which differ only at the region's output array. -/
def mkReg (p : Fin 6) (lw : Pipeline.LaunchFacts (nD := nD) (τ := τ) cfgs p) (Vi Vo : Dev nD → Valuation τ sig (Elt F)) (o : Fin (cfgs p).W)
    (hb : ∀ c, BodyObligation (pdats m p c) (defs₀ (F := F)) Variants.none () Set.univ)
    (hΦi : ∀ c, iprop((∃ r, prngReg c r) ∗ Pipeline.scopedRest (cfgs p).spec c) ⊢ (pdats m p c).Φ 0)
    (hΦo : ∀ c, (pdats m p c).Φ (Fin.last (cfgs p).N) ⊢ iprop((∃ r, prngReg c r) ∗ Pipeline.scopedRest (cfgs p).spec c))
    (hVo : ∀ c, Vo c (Pipeline.arrRef (cfgs p).spec o) = (pdats m p c).arrAt o (cfgs p).N)
    (hof : ∀ c (b : Ref sig .tc), b ∉ ([Pipeline.arrRef (cfgs p).spec o] : List (Ref sig .tc)) → Vo c b = Vi c b)
    (hA : ∀ c w, (pdats m p c).A w = Vi c (Pipeline.arrRef (cfgs p).spec w) := by exact fun _ _ => rfl)
    (hq : ∀ c w, (pdats m p c).q w = fullShare := by exact fun _ _ => rfl)
    (h0 : ∀ c t, (pdats m p c).owed t = 0 := by exact fun _ _ => rfl)
    (hr : ∀ c, (pdats m p c).recorded 0 = Set.univ := by exact fun _ => rfl)
    (hio : ∀ w, w ≠ o → ((cfgs p).win w).isOut = false := by decide) :
    RegionSeg (pcfgs (F := F)) adm (pdats m) () defs₀ Variants.none L₀ lv₀ p where
  win := lw.win.to₀
  block_pos := lw.block_pos
  stage_whole := lw.stage_whole
  K := PEmpty
  osem k := k.elim
  ho := Pipeline.OwnSemFacts.none _
  hbody c := (hb c).loose
  hwaits := Pipeline.hwaits_of_owed_zero _ _ _ _ L₀ lv₀ p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c (fun b => Vi c b)
  hentry c := by
    unfold Pipeline.Dat.owesAt Pipeline.owesWithin
    rw [Pipeline.ownSems0_none, h0 c]
    have hsplit := Pipeline.arrays_of_unscopedBufs (p := p) (pcfgs (F := F)) adm (pdats m) lw.win lw.arr_whole c
      ((pdats m p c).share_full (hq c)) (fun b => Vi c b) (hA c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · icases Howes with ⟨%W, Howes⟩; iexists W
      isplitr; · ipureintro; exact fun _ _ => Or.inl (hr c ▸ trivial)
      iexact Howes
    isplitl [Hprng]; · iexact Hprng
    iexact Hrest
  hin c := by
    iintro ⟨Hprng, -, Hscoped⟩
    iapply hΦi c
    isplitl [Hprng]; · iexact Hprng
    iexact Hscoped
  hout c := by
    rw [Pipeline.ownSems0_none]
    refine (hΦo c).trans ?_
    iintro ⟨Hprng, Hscoped⟩
    isplitl [Hprng]; · iexact Hprng
    isplitr; · iempintro
    iexact Hscoped
  hexit c := by
    unfold Pipeline.Dat.owesAt Pipeline.owesWithin
    rw [h0 c]
    have hjoin := Pipeline.unscopedBufs_of_arrays (p := p) (pcfgs (F := F)) adm
      lw.win lw.arr_whole c (pdats m) ((pdats m p c).share_full (hq c))
      (fun b => Vi c b) (fun b => Vo c b) ((pdats m p c).arrAt · (cfgs p).N)
      (fun w => by
        by_cases h : w = o
        · subst h; exact (hVo c).symm
        · exact ((pdats m p c).arrAt_in w (hio w h) _).trans
            ((hA c w).trans (hof c _ fun h' => h (lw.win.arr_inj (List.mem_singleton.1 h'))).symm))
      (fun b hb' => hof c b fun h => hb' (List.mem_singleton.1 h ▸ Finset.mem_image_of_mem _ (Finset.mem_univ o)))
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    icases Howes with ⟨%W, -, Howes⟩; iexists W; iexact Howes

def reg0 := mkReg m 0 launch0 (W3 m) (W4 m) 2 (body_obligation0 fun c b => W3 m c b) (fun _ => sep_comm) (fun _ => sep_comm) (W4_out m) (W4_of m)
def reg1 := mkReg m 1 launch1 (W4 m) (W5 m) 3 (body_obligation1 fun c b => W4 m c b) (Φ1_in _) (Φ1_out _) (W5_out m) (W5_of m)
def reg2 := mkReg m 2 launch2 (W5 m) (W6 m) 2 (body_obligation2 fun c b => W5 m c b) (fun _ => sep_comm) (fun _ => sep_comm) (W6_out m) (W6_of m)
def reg3 := mkReg m 3 launch3 (W6 m) (W7 m) 3 (body_obligation3 fun c b => W6 m c b) (Φ3_in _) (Φ3_out _) (W7_out m) (W7_of m)
def reg4 := mkReg m 4 launch4 (W7 m) (W8 m) 2 (body_obligation4 fun c b => W7 m c b) (fun _ => sep_comm) (fun _ => sep_comm) (W8_out m) (W8_of m)
def reg5 := mkReg m 5 launch5 (W8 m) (W9 m) 3 (body_obligation5 fun c b => W8 m c b) (Φ5_in _) (Φ5_out _) (W9_out m) (W9_of m)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Equal contents give the same assertion, whatever stands beside it. -/
theorem held_congr {c : Dev nD} {V V' : Valuation τ sig (Elt F)} (h : V = V') {P Q : sProp 𝕄} (hPQ : P ⊢ Q) :
    iprop(StableHlo.held (c : Thread nD τ) (Pipeline.ucRefs τ sig) V ∗ P)
      ⊢ iprop(StableHlo.held (c : Thread nD τ) (Pipeline.ucRefs τ sig) V' ∗ Q) := h ▸ sep_mono .rfl hPQ

set_option backward.isDefEq.respectTransparency.types false in
/-- Every execution of @main ends with the buffers at `W10`: ten segments, each entered at the contents the one before leaves. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W10 m c b) := by
  refine Pipeline.θ_run_regions_kit_dev (pcfgs (F := F)) adm (pdats m) () cellOf_inj emb₁ defs₀ Variants.none L₀ lv₀ m ρ main
    (segs m (outs m) Variants.none L₀ lv₀ (fun _ c => R c) () (pdats m) (reg0 m) (reg1 m) (reg2 m) (reg3 m) (reg4 m) (reg5 m))
    (fun c Q => by rewrite [main_chain c, Seg.run_eq_chain]; exact .rfl)
    (fun c => by simp only [segs, Seg.pipes_host, Seg.pipes_region, Seg.pipes_nil]; decide) (fun _ => 0) (fun _ _ => rfl)
    (fun _ => BI.emp) _ (by
      rw [BI.bigSep_emp_const, ownU_emb₁]
      iintro Hu; imodintro
      isplitl [Hu]; · iexact Hu
      iempintro)
    (T₀ := fun c => iprop(StableHlo.held (c : Thread nD τ) (Pipeline.ucRefs τ sig) (V0 m c) ∗ R c))
    (Tₙ := fun c => StableHlo.held (c : Thread nD τ) (Pipeline.ucRefs τ sig) (W10 m c))
    (hch := fun c => ⟨.rfl, .rfl, .rfl, .rfl, .rfl, .rfl, .rfl, .rfl, .rfl, held_congr (V9_eq m c).symm .rfl,
      held_congr (V10_eq m c) (by iintro ⟨-, H⟩; iexact H)⟩)
    (hinit := ?_)
    (QY := fun c s => ∀ b ∈ Pipeline.ucRefs τ sig, s.mem (((c : Thread nD τ)).1, b) = W10 m c b)
    (hfin := fun c s' => ?_) (hQ := fun _ h => h)
  · refine Pipeline.initEach L₀ lv₀ fun c => ?_
    iintro ⟨⟨Hb, -, Howes, -, Hprng, -⟩, -⟩
    imodintro
    isplitl [Hb]
    · rw [← Pipeline.unscopedBufs_held (Ix := Unit) (Name := ℕ) (U := UR sig nD τ) (Lvl := ℕ) c (V0 m c)]; iexact Hb
    isplitl [Hprng]; · iexists _; iexact Hprng
    iexists ∅; iexact Howes
  · unfold StableHlo.held
    iintro ⟨Hh, HSI⟩
    imodintro
    iapply (pointsTo_read_all (Pipeline.ucRefs τ sig) (fun b => ((c : Thread nD τ).1, b)) (W10 m c) s')
    isplitl [Hh] <;> iassumption

/-- Every argument array ends as launched: `W10` at an argument is the launch memory's. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c)⟩)
    (run_all m ρ)

end Cert.Kernel.Hand

end
-- ==== Proof.KI.Lin0.lean ====
import proofs.«425200_j18691697672407_2_alg».proof.Proof.Gen.KernelIdeal.Launch
import proofs.«425200_j18691697672407_2_alg».proof.Proof.Gen.KernelIdeal.Skeleton
import proofs.«425200_j18691697672407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x512 := Rect.unit (s := S1024x512) ![0, 0] S1024x512.size inb_S1024x512_S1024x512_0_0
abbrev rW0 : Rect S512x512 := Rect.unit (s := S512x512) ![0, 0] S512x512.size inb_S512x512_S512x512_0_0
abbrev rO0 : Rect S1024x512 := Rect.unit (s := S1024x512) ![0, 0] S1024x512.size inb_S1024x512_S1024x512_0_0

def out0_2 (x0 : Vec F S1024x512 .bf16) (x1 : Vec F S512x512 .bf16) : Vec F S1024x512 .bf16 :=
  View.canon [⟨rO0, k0_pay1 (View.ld x0 rX0) (View.ld x1 rW0)⟩]

-- the body leaves the product of its two input blocks in the output block and the inputs as they were
set_option maxHeartbeats 1000000 in
theorem sound_kernel0 (c : Dev nD) (E : Set ℕ) (i : grid0.Coords)
    (arg1 : Memref sig .tc .vmem S1024x512 .bf16) (harg1 : arg1.IsWhole) (arg2 : Memref sig .tc .vmem S512x512 .bf16) (harg2 : arg2.IsWhole)
    (arg3 : Memref sig .tc .vmem S1024x512 .bf16) (harg3 : arg3.IsWhole)
    (x0 : Vec F S1024x512 .bf16) (x1 : Vec F S512x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ ∀ d, (dat0 V c).before 1 t d = iblk0 V c 1 t := by
  refine ⟨fun d => ?_, fun d => ?_⟩ <;>
    exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [(before0 V c t).1, (before0 V c t).2]
  rw [show (dat0 V c).Φ t.succ = (dat0 V c).Φ t.castSucc from rfl, show (dat0 V c).owesAt () t.succ = (dat0 V c).owesAt () t.castSucc from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H2
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin2.lean ====
import proofs.«425200_j18691697672407_2_alg».proof.Proof.Gen.KernelIdeal.Launch
import proofs.«425200_j18691697672407_2_alg».proof.Proof.Gen.KernelIdeal.Skeleton
import proofs.«425200_j18691697672407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S1024x1024 := Rect.unit (s := S1024x1024) ![0, 0] S1024x1024.size inb_S1024x1024_S1024x1024_0_0
abbrev rW2 : Rect S1024x512 := Rect.unit (s := S1024x512) ![0, 0] S1024x512.size inb_S1024x512_S1024x512_0_0
abbrev rO2 : Rect S1024x512 := Rect.unit (s := S1024x512) ![0, 0] S1024x512.size inb_S1024x512_S1024x512_0_0

def out2_2 (x0 : Vec F S1024x1024 .bf16) (x1 : Vec F S1024x512 .bf16) : Vec F S1024x512 .bf16 :=
  View.canon [⟨rO2, k2_pay1 (View.ld x0 rX2) (View.ld x1 rW2)⟩]

-- the body leaves the product of its two input blocks in the output block and the inputs as they were
set_option maxHeartbeats 1000000 in
theorem sound_kernel2 (c : Dev nD) (E : Set ℕ) (i : grid2.Coords)
    (arg1 : Memref sig .tc .vmem S1024x1024 .bf16) (harg1 : arg1.IsWhole) (arg2 : Memref sig .tc .vmem S1024x512 .bf16) (harg2 : arg2.IsWhole)
    (arg3 : Memref sig .tc .vmem S1024x512 .bf16) (harg3 : arg3.IsWhole)
    (x0 : Vec F S1024x1024 .bf16) (x1 : Vec F S1024x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x512.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]

theorem before2 (c : Dev nD) (t : Fin cfg2.N) :
    (∀ d, (dat2 V c).before 0 t d = iblk2 V c 0 t) ∧ ∀ d, (dat2 V c).before 1 t d = iblk2 V c 1 t := by
  refine ⟨fun d => ?_, fun d => ?_⟩ <;>
    exact ((dat2 V c).before_in_eq_fetched _ rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t))) := by
  unfold bodyAt2
  simp only [(before2 V c t).1, (before2 V c t).2]
  rw [show (dat2 V c).Φ t.succ = (dat2 V c).Φ t.castSucc from rfl, show (dat2 V c).owesAt () t.succ = (dat2 V c).owesAt () t.castSucc from rfl, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe HΦ Ho H2
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Lin4.lean ====
import proofs.«425200_j18691697672407_2_alg».proof.Proof.Gen.KernelIdeal.Launch
import proofs.«425200_j18691697672407_2_alg».proof.Proof.Gen.KernelIdeal.Skeleton
import proofs.«425200_j18691697672407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rX4 : Rect S1024x1024 := Rect.unit (s := S1024x1024) ![0, 0] S1024x1024.size inb_S1024x1024_S1024x1024_0_0
abbrev rW4 : Rect S1024x256 := Rect.unit (s := S1024x256) ![0, 0] S1024x256.size inb_S1024x256_S1024x256_0_0
abbrev rO4 : Rect S1024x256 := Rect.unit (s := S1024x256) ![0, 0] S1024x256.size inb_S1024x256_S1024x256_0_0

def out4_2 (x0 : Vec F S1024x1024 .bf16) (x1 : Vec F S1024x256 .bf16) : Vec F S1024x256 .bf16 :=
  View.canon [⟨rO4, k4_pay1 (View.ld x0 rX4) (View.ld x1 rW4)⟩]

-- the body leaves the product of its two input blocks in the output block and the inputs as they were
set_option maxHeartbeats 1000000 in
theorem sound_kernel4 (c : Dev nD) (E : Set ℕ) (i : grid4.Coords)
    (arg1 : Memref sig .tc .vmem S1024x1024 .bf16) (harg1 : arg1.IsWhole) (arg2 : Memref sig .tc .vmem S1024x256 .bf16) (harg2 : arg2.IsWhole)
    (arg3 : Memref sig .tc .vmem S1024x256 .bf16) (harg3 : arg3.IsWhole)
    (x0 : Vec F S1024x1024 .bf16) (x1 : Vec F S1024x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4_2 (iblk4 V c 0 t) (iblk4 V c 1 t) := by dsimp only [dat4]

theorem before4 (c : Dev nD) (t : Fin cfg4.N) :
    (∀ d, (dat4 V c).before 0 t d = iblk4 V c 0 t) ∧ ∀ d, (dat4 V c).before 1 t d = iblk4 V c 1 t := by
  refine ⟨fun d => ?_, fun d => ?_⟩ <;>
    exact ((dat4 V c).before_in_eq_fetched _ rfl (fun _ => rfl) (fun _ _ _ => rfl) (fun _ => rfl) t d).trans rfl

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t))) := by
  unfold bodyAt4
  simp only [(before4 V c t).1, (before4 V c t).2]
  rw [show (dat4 V c).Φ t.succ = (dat4 V c).Φ t.castSucc from rfl, show (dat4 V c).owesAt () t.succ = (dat4 V c).owesAt () t.castSucc from rfl, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe HΦ Ho H2
  isplitl [H0]; · iexact H0
  iexact H1

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Agg1.lean ====
import proofs.«425200_j18691697672407_2_alg».proof.Proof.Gen.KernelIdeal.Launch
import proofs.«425200_j18691697672407_2_alg».proof.Proof.Gen.KernelIdeal.Skeleton
import proofs.«425200_j18691697672407_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def reset1 : Vec F S1024x512 .f32 := k1_pay1

def step1 (acc : Vec F S1024x512 .f32) (a : Vec F S1024x1024 .bf16) (s : Vec F S1024x512 .bf16) : Vec F S1024x512 .f32 :=
  k1_pay2 acc a s

-- the sum of a tile's products so far; it starts again at every tenth point
def accAfter1 (c : Dev nD) : (n : ℕ) → n < cfg1.N → Vec F S1024x512 .f32
  | 0, hn => step1 reset1 (iblk1 V c 0 ⟨0, hn⟩) (iblk1 V c 1 ⟨0, hn⟩)
  | n + 1, hn =>
    if (n + 1) % 10 = 0 then step1 reset1 (iblk1 V c 0 ⟨n + 1, hn⟩) (iblk1 V c 1 ⟨n + 1, hn⟩)
    else step1 (accAfter1 c n (Nat.lt_of_succ_lt hn)) (iblk1 V c 0 ⟨n + 1, hn⟩) (iblk1 V c 1 ⟨n + 1, hn⟩)

abbrev rLo1 : Rect S1024x1024 := Rect.unit (s := S1024x1024) ![0, 0] S1024x512.size inb_S1024x1024_S1024x512_0_0
abbrev rHi1 : Rect S1024x1024 := Rect.unit (s := S1024x1024) ![0, 512] S1024x512.size inb_S1024x1024_S1024x512_0_512

def out1_3 (i : grid1.Coords) (acc : Vec F S1024x512 .f32) (b : Vec F S1x512 .f32) : Vec F S1024x1024 .bf16 :=
  View.canon [⟨rHi1, k1_pay5 i acc b⟩, ⟨rLo1, k1_pay4 i acc b⟩]

-- the invariant: past the first of a tile's ten points the accumulator is the sum so far
def Φ1 (c : Dev nD) (t : Fin (cfg1.N + 1)) : sProp 𝕄 :=
  iprop((∃ f : Vec F S1024x512 .f32, owns (c : Thread nD τ) (Memref.whole cc1_scratch0) fullShare f
      ∗ ⌜∀ h : 0 < t.val, t.val % 10 ≠ 0 →
          f = accAfter1 V c (t.val - 1) (Nat.lt_of_lt_of_le (Nat.sub_lt h Nat.one_pos) (Nat.lt_succ_iff.mp t.isLt))⌝)
    ∗ Pipeline.scopedRestBut (Ix := Unit) (Name := ℕ) (U := UR sig nD τ) (Lvl := ℕ) (Val := Elt F) spec1 c [cc1_scratch0]
    ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (accAfter1 V c t.val t.isLt) (iblk1 V c 2 t)
  Φ t := Φ1 V c t
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (grid1.coords t) (accAfter1 V c t.val t.isLt) (iblk1 V c 2 t) := by dsimp only [dat1]
theorem Φ_eq1 (c : Dev nD) (t : Fin (cfg1.N + 1)) : (dat1 V c).Φ t = Φ1 V c t := by dsimp only [dat1]

theorem accAfter1_first (c : Dev nD) (t : Fin cfg1.N) (h : t.val % 10 = 0) :
    accAfter1 V c t.val t.isLt = step1 reset1 (iblk1 V c 0 t) (iblk1 V c 1 t) := by
  obtain ⟨n, hn⟩ := t
  cases n with
  | zero => exact rfl
  | succ n => exact if_pos h
theorem accAfter1_next (c : Dev nD) (t : Fin cfg1.N) (h : t.val % 10 ≠ 0) :
    accAfter1 V c t.val t.isLt
      = step1 (accAfter1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

theorem Φ1_in (c : Dev nD) :
    iprop((∃ r, prngReg c r) ∗ Pipeline.scopedRest (Ix := Unit) (Name := ℕ) (U := UR sig nD τ) (Lvl := ℕ) (Val := Elt F) spec1 c)
      ⊢ (Φ1 V c 0 : sProp 𝕄) := by
  unfold Φ1
  rw [scopedRest1_split]
  iintro ⟨Hr, ⟨%f, Hf⟩, Hrest⟩
  iframe Hrest Hr
  iexists f
  isplitl [Hf]
  · rw [owns_whole]; iexact Hf
  · ipureintro; intro h; exact absurd h (Nat.lt_irrefl 0)

theorem Φ1_out (c : Dev nD) :
    (Φ1 V c (Fin.last cfg1.N) : sProp 𝕄)
      ⊢ iprop((∃ r, prngReg c r) ∗ Pipeline.scopedRest (Ix := Unit) (Name := ℕ) (U := UR sig nD τ) (Lvl := ℕ) (Val := Elt F) spec1 c) := by
  unfold Φ1
  rw [scopedRest1_split]
  simp only [owns_whole]
  iintro ⟨⟨%f, Hf, -⟩, Hrest, Hr⟩
  iframe Hr Hrest
  iexists f; iexact Hf

theorem hz1 : (![0, 0] : Fin 2 → Nat) = fun _ => 0 := funext fun a => by fin_cases a <;> rfl

abbrev cond1_0 (i : grid1.Coords) : Prop := Scalar.cmpi .ne (Scalar.extui (Scalar.cmpi .eq (BitVec.ofNat 32 (i 1).val) 0#32)) 0#32 = 1#1

theorem cover1 (w : Vec F S1024x512 .f32) (L : List (View.Piece (Elt F) S1024x512 .f32)) (y : S1024x512.Idx) :
    ∃ q ∈ (⟨Rect.unit (s := S1024x512) ![0, 0] S1024x512.size inb_S1024x512_S1024x512_0_0, w⟩ : View.Piece (Elt F) S1024x512 .f32) :: L, y ∈ q.1.set :=
  ⟨_, List.Mem.head _, View.mem_set_unit_zero hz1 inb_S1024x512_S1024x512_0_0 y⟩

theorem cover1_3 (pH pL : Vec F S1024x512 .bf16) (y : S1024x1024.Idx) :
    ∃ q ∈ [(⟨rHi1, pH⟩ : View.Piece (Elt F) S1024x1024 .bf16), ⟨rLo1, pL⟩], y ∈ q.1.set :=
  View.cover_of_tiled (s := S1024x1024) [(⟨rHi1, pH⟩ : View.Piece (Elt F) S1024x1024 .bf16), ⟨rLo1, pL⟩] S1024x512.size (by rfl) y

set_option maxHeartbeats 1000000 in
-- all three kinds of point at once: the two conditions say where the sum starts and whether the output tile is made
theorem run1 (c : Dev nD) (i : grid1.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x1024 .bf16) (harg5 : arg5.IsWhole)
    (arg6 : Memref sig .tc .vmem S1024x512 .f32) (harg6 : arg6.IsWhole)
    (hFL : cond1_0 i → ¬ k1_cond2 i = 1#1)
    (a : Vec F S1024x1024 .bf16) (s : Vec F S1024x512 .bf16) (b : Vec F S1x512 .f32) (o : Vec F S1024x1024 .bf16) (f : Vec F S1024x512 .f32)
    (acc' : Vec F S1024x512 .f32) (hacc : step1 (if cond1_0 i then reset1 else f) a s = acc') (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare o ∗ owns (c : Thread nD τ) arg6 fullShare f
        ∗ (iprop(owns (c : Thread nD τ) arg2 fullShare a ∗ owns (c : Thread nD τ) arg3 fullShare s ∗ owns (c : Thread nD τ) arg4 fullShare b
            ∗ owns (c : Thread nD τ) arg5 fullShare (if k1_cond2 i = 1#1 then out1_3 i acc' b else o)
            ∗ owns (c : Thread nD τ) arg6 fullShare acc') -∗ K ⟨⟩))
      ⊢ wp frame (wpE (defs₀ (F := F)) Variants.none c none) E (cc1__agg_concat_kernel i arg2 harg2 arg3 harg3 arg4 harg4 arg5 harg5 arg6 harg6) K := by
  by_cases hcF : cond1_0 i <;> by_cases hcL : k1_cond2 i = 1#1
  · exact absurd hcL (hFL hcF)
  all_goals
    first | rw [if_pos hcF] at hacc | rw [if_neg hcF] at hacc
    first | rw [if_pos hcL] | rw [if_neg hcL]
    simp only [cc1__agg_concat_kernel_eq_skeleton]; unfold cc1__agg_concat_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hcF | exact hcL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | rw [← hacc]
        unfold out1_3 step1
        sl_unfold_words
        rw [View.read_writes_eq_canon _ _ _ (cover1_3 _ _)]
        simp only [View.readCov_unit_zero (S := S1024x512) _ hz1, View.readAt_eq_ld, harg2.read_unread, harg3.read_unread,
          harg4.read_unread, harg6.read_unread,
          View.ld_unit_zero (S := S1024x1024) hz1, View.ld_unit_zero (S := S1024x512) hz1, View.ld_unit_zero (S := S1x512) hz1]
      | exact harg5.read_unread _
    iexists _; isplitr
    swap; · iexact H6
    ipureintro
    rw [← hacc]
    unfold step1
    try unfold reset1
    sl_unfold_words
    rw [View.read_writes_eq_canon _ _ _ (cover1 _ _), View.canon_cons_unit_zero (S := S1024x512) hz1]
    simp only [View.readCov_unit_zero (S := S1024x512) _ hz1, View.readAt_eq_ld, harg2.read_unread, harg3.read_unread, harg6.read_unread,
      View.ld_unit_zero (S := S1024x1024) hz1, View.ld_unit_zero (S := S1024x512) hz1]

theorem hcond1_0 : ∀ t : Fin cfg1.N, cond1_0 (grid1.coords t) ↔ t.val % 10 = 0 := by decide +kernel
theorem hcond1_1 : ∀ t : Fin cfg1.N, k1_cond2 (grid1.coords t) = 1#1 ↔ t.val % 10 = 9 := by decide +kernel
theorem idle1_3 : ∀ t : Fin cfg1.N, cfg1.idle 3 (cfg1.grid.coords t) = true ↔ t.val % 10 ≠ 9 := by decide +kernel

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
    exact ((dat1 V c).before_in_eq_fetched _ rfl (fun _ => rfl) (fun _ _ _ => rfl) (fun _ => rfl) t d).trans rfl

theorem leaves1_3 (c : Dev nD) (t : Fin cfg1.N) (d) :
    owns (c : Thread nD τ) (win1_3.stage (cfg1.slots t 3)) fullShare (if k1_cond2 (grid1.coords t) = 1#1
        then out1_3 (grid1.coords t) (accAfter1 V c t.val t.isLt) (iblk1 V c 2 t) else (dat1 V c).before 3 t d)
      ⊢ ((dat1 V c).leavesExact 3 t : sProp 𝕄) := by
  by_cases h9 : t.val % 10 = 9
  · have hi : cfg1.idle 3 (cfg1.grid.coords t) = false := Bool.eq_false_iff.mpr fun h => (idle1_3 t).mp h h9
    unfold Dat.leavesExact; rw [hi, after1_3, if_pos ((hcond1_1 t).mpr h9)]
  · rw [(dat1 V c).leavesExact_idle 3 t ((idle1_3 t).mpr h9) (Bool.eq_false_iff.mpr fun h => h9 ((flush1_3 t).mp h)),
      if_neg fun h => h9 ((hcond1_1 t).mp h)]
    iintro H; iexists d; iexact H

-- the invariant's sum so far, one step on, is the sum through this point
theorem acc_step1 (c : Dev nD) (t : Fin cfg1.N) (f : Vec F S1024x512 .f32)
    (hf : ∀ h : 0 < t.castSucc.val, t.castSucc.val % 10 ≠ 0 →
      f = accAfter1 V c (t.castSucc.val - 1) (Nat.lt_of_lt_of_le (Nat.sub_lt h Nat.one_pos) (Nat.lt_succ_iff.mp t.castSucc.isLt))) :
    step1 (if cond1_0 (grid1.coords t) then reset1 else f) (iblk1 V c 0 t) (iblk1 V c 1 t) = accAfter1 V c t.val t.isLt := by
  by_cases h0 : t.val % 10 = 0
  · rw [if_pos ((hcond1_0 t).mpr h0)]; exact (accAfter1_first V c t h0).symm
  · rw [if_neg fun h => h0 ((hcond1_0 t).mp h), hf (Nat.pos_of_ne_zero fun e => h0 (by rw [show t.val = 0 from e])) h0]
    exact (accAfter1_next V c t h0).symm

theorem sound_body1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d)))
    ⊢ wp frame (wpE (defs₀ (F := F)) Variants.none c none) Set.univ (bodyAt1 t) (fun _ =>
      iprop(Φ1 V c t.succ ∗ (dat1 V c).owesAt () t.castSucc
        ∗ owns (c : Thread nD τ) (win1_0.stage (cfg1.slots t 0)) fullShare (iblk1 V c 0 t)
        ∗ owns (c : Thread nD τ) (win1_1.stage (cfg1.slots t 1)) fullShare (iblk1 V c 1 t)
        ∗ owns (c : Thread nD τ) (win1_2.stage (cfg1.slots t 2)) fullShare (iblk1 V c 2 t) ∗ (dat1 V c).leavesExact 3 t)) := by
  unfold bodyAt1
  simp only [(before1 V c t).1, (before1 V c t).2.1, (before1 V c t).2.2]
  rw [Φ_eq1]
  unfold Φ1
  iintro ⟨⟨⟨%f, Hs, %hf⟩, Hrest, Hr⟩, Ho, ⟨%da, Ha⟩, ⟨%db, Hb⟩, ⟨%dc, Hc⟩, ⟨%dd, Hd⟩⟩
  iapply (run1 c (grid1.coords t) _ _ _ _ _ _ _ _ _ _
    (fun h h' => by have := (hcond1_0 t).mp h; have := (hcond1_1 t).mp h'; omega)
    (iblk1 V c 0 t) (iblk1 V c 1 t) (iblk1 V c 2 t) _ f _ (acc_step1 V c t f hf) Set.univ _)
  iframe Ha Hb Hc Hd Hs
  iintro ⟨Ha, Hb, Hc, Hd, Hs⟩
  iframe Hrest Hr Ho Ha Hb Hc
  isplitl [Hs]
  · iexists _
    isplitl [Hs]
    · iexact Hs
    · ipureintro; intro _ _; rfl
  iapply (leaves1_3 V c t dd); iexact Hd

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Agg3.lean ====
import proofs.«425200_j18691697672407_2_alg».proof.Proof.Gen.KernelIdeal.Launch
import proofs.«425200_j18691697672407_2_alg».proof.Proof.Gen.KernelIdeal.Skeleton
import proofs.«425200_j18691697672407_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def reset3 : Vec F S1024x512 .f32 := k3_pay1

def step3 (acc : Vec F S1024x512 .f32) (a : Vec F S1024x1024 .bf16) (s : Vec F S1024x512 .bf16) : Vec F S1024x512 .f32 :=
  k3_pay2 acc a s

-- the sum of a tile's products so far; it starts again at every tenth point
def accAfter3 (c : Dev nD) : (n : ℕ) → n < cfg3.N → Vec F S1024x512 .f32
  | 0, hn => step3 reset3 (iblk3 V c 0 ⟨0, hn⟩) (iblk3 V c 1 ⟨0, hn⟩)
  | n + 1, hn =>
    if (n + 1) % 10 = 0 then step3 reset3 (iblk3 V c 0 ⟨n + 1, hn⟩) (iblk3 V c 1 ⟨n + 1, hn⟩)
    else step3 (accAfter3 c n (Nat.lt_of_succ_lt hn)) (iblk3 V c 0 ⟨n + 1, hn⟩) (iblk3 V c 1 ⟨n + 1, hn⟩)

abbrev rLo3 : Rect S1024x1024 := Rect.unit (s := S1024x1024) ![0, 0] S1024x512.size inb_S1024x1024_S1024x512_0_0
abbrev rHi3 : Rect S1024x1024 := Rect.unit (s := S1024x1024) ![0, 512] S1024x512.size inb_S1024x1024_S1024x512_0_512

def out3_3 (i : grid3.Coords) (acc : Vec F S1024x512 .f32) (b : Vec F S1x512 .f32) : Vec F S1024x1024 .bf16 :=
  View.canon [⟨rHi3, k3_pay5 i acc b⟩, ⟨rLo3, k3_pay4 i acc b⟩]

-- the invariant: past the first of a tile's ten points the accumulator is the sum so far
def Φ3 (c : Dev nD) (t : Fin (cfg3.N + 1)) : sProp 𝕄 :=
  iprop((∃ f : Vec F S1024x512 .f32, owns (c : Thread nD τ) (Memref.whole cc3_scratch0) fullShare f
      ∗ ⌜∀ h : 0 < t.val, t.val % 10 ≠ 0 →
          f = accAfter3 V c (t.val - 1) (Nat.lt_of_lt_of_le (Nat.sub_lt h Nat.one_pos) (Nat.lt_succ_iff.mp t.isLt))⌝)
    ∗ Pipeline.scopedRestBut (Ix := Unit) (Name := ℕ) (U := UR sig nD τ) (Lvl := ℕ) (Val := Elt F) spec3 c [cc3_scratch0]
    ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (grid3.coords t) (accAfter3 V c t.val t.isLt) (iblk3 V c 2 t)
  Φ t := Φ3 V c t
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) :
    (dat3 V c).after 3 t = out3_3 (grid3.coords t) (accAfter3 V c t.val t.isLt) (iblk3 V c 2 t) := by dsimp only [dat3]
theorem Φ_eq3 (c : Dev nD) (t : Fin (cfg3.N + 1)) : (dat3 V c).Φ t = Φ3 V c t := by dsimp only [dat3]

theorem accAfter3_first (c : Dev nD) (t : Fin cfg3.N) (h : t.val % 10 = 0) :
    accAfter3 V c t.val t.isLt = step3 reset3 (iblk3 V c 0 t) (iblk3 V c 1 t) := by
  obtain ⟨n, hn⟩ := t
  cases n with
  | zero => exact rfl
  | succ n => exact if_pos h
theorem accAfter3_next (c : Dev nD) (t : Fin cfg3.N) (h : t.val % 10 ≠ 0) :
    accAfter3 V c t.val t.isLt
      = step3 (accAfter3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

theorem Φ3_in (c : Dev nD) :
    iprop((∃ r, prngReg c r) ∗ Pipeline.scopedRest (Ix := Unit) (Name := ℕ) (U := UR sig nD τ) (Lvl := ℕ) (Val := Elt F) spec3 c)
      ⊢ (Φ3 V c 0 : sProp 𝕄) := by
  unfold Φ3
  rw [scopedRest3_split]
  iintro ⟨Hr, ⟨%f, Hf⟩, Hrest⟩
  iframe Hrest Hr
  iexists f
  isplitl [Hf]
  · rw [owns_whole]; iexact Hf
  · ipureintro; intro h; exact absurd h (Nat.lt_irrefl 0)

theorem Φ3_out (c : Dev nD) :
    (Φ3 V c (Fin.last cfg3.N) : sProp 𝕄)
      ⊢ iprop((∃ r, prngReg c r) ∗ Pipeline.scopedRest (Ix := Unit) (Name := ℕ) (U := UR sig nD τ) (Lvl := ℕ) (Val := Elt F) spec3 c) := by
  unfold Φ3
  rw [scopedRest3_split]
  simp only [owns_whole]
  iintro ⟨⟨%f, Hf, -⟩, Hrest, Hr⟩
  iframe Hr Hrest
  iexists f; iexact Hf

theorem hz3 : (![0, 0] : Fin 2 → Nat) = fun _ => 0 := funext fun a => by fin_cases a <;> rfl

abbrev cond3_0 (i : grid3.Coords) : Prop := Scalar.cmpi .ne (Scalar.extui (Scalar.cmpi .eq (BitVec.ofNat 32 (i 1).val) 0#32)) 0#32 = 1#1

theorem cover3 (w : Vec F S1024x512 .f32) (L : List (View.Piece (Elt F) S1024x512 .f32)) (y : S1024x512.Idx) :
    ∃ q ∈ (⟨Rect.unit (s := S1024x512) ![0, 0] S1024x512.size inb_S1024x512_S1024x512_0_0, w⟩ : View.Piece (Elt F) S1024x512 .f32) :: L, y ∈ q.1.set :=
  ⟨_, List.Mem.head _, View.mem_set_unit_zero hz3 inb_S1024x512_S1024x512_0_0 y⟩

theorem cover3_3 (pH pL : Vec F S1024x512 .bf16) (y : S1024x1024.Idx) :
    ∃ q ∈ [(⟨rHi3, pH⟩ : View.Piece (Elt F) S1024x1024 .bf16), ⟨rLo3, pL⟩], y ∈ q.1.set :=
  View.cover_of_tiled (s := S1024x1024) [(⟨rHi3, pH⟩ : View.Piece (Elt F) S1024x1024 .bf16), ⟨rLo3, pL⟩] S1024x512.size (by rfl) y

set_option maxHeartbeats 1000000 in
-- all three kinds of point at once: the two conditions say where the sum starts and whether the output tile is made
theorem run3 (c : Dev nD) (i : grid3.Coords)
    (arg2 : Memref sig .tc .vmem S1024x1024 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S1024x1024 .bf16) (harg5 : arg5.IsWhole)
    (arg6 : Memref sig .tc .vmem S1024x512 .f32) (harg6 : arg6.IsWhole)
    (hFL : cond3_0 i → ¬ k3_cond2 i = 1#1)
    (a : Vec F S1024x1024 .bf16) (s : Vec F S1024x512 .bf16) (b : Vec F S1x512 .f32) (o : Vec F S1024x1024 .bf16) (f : Vec F S1024x512 .f32)
    (acc' : Vec F S1024x512 .f32) (hacc : step3 (if cond3_0 i then reset3 else f) a s = acc') (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare o ∗ owns (c : Thread nD τ) arg6 fullShare f
        ∗ (iprop(owns (c : Thread nD τ) arg2 fullShare a ∗ owns (c : Thread nD τ) arg3 fullShare s ∗ owns (c : Thread nD τ) arg4 fullShare b
            ∗ owns (c : Thread nD τ) arg5 fullShare (if k3_cond2 i = 1#1 then out3_3 i acc' b else o)
            ∗ owns (c : Thread nD τ) arg6 fullShare acc') -∗ K ⟨⟩))
      ⊢ wp frame (wpE (defs₀ (F := F)) Variants.none c none) E (cc3__agg_concat_kernel i arg2 harg2 arg3 harg3 arg4 harg4 arg5 harg5 arg6 harg6) K := by
  by_cases hcF : cond3_0 i <;> by_cases hcL : k3_cond2 i = 1#1
  · exact absurd hcL (hFL hcF)
  all_goals
    first | rw [if_pos hcF] at hacc | rw [if_neg hcF] at hacc
    first | rw [if_pos hcL] | rw [if_neg hcL]
    simp only [cc3__agg_concat_kernel_eq_skeleton]; unfold cc3__agg_concat_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hcF | exact hcL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | rw [← hacc]
        unfold out3_3 step3
        sl_unfold_words
        rw [View.read_writes_eq_canon _ _ _ (cover3_3 _ _)]
        simp only [View.readCov_unit_zero (S := S1024x512) _ hz3, View.readAt_eq_ld, harg2.read_unread, harg3.read_unread,
          harg4.read_unread, harg6.read_unread,
          View.ld_unit_zero (S := S1024x1024) hz3, View.ld_unit_zero (S := S1024x512) hz3, View.ld_unit_zero (S := S1x512) hz3]
      | exact harg5.read_unread _
    iexists _; isplitr
    swap; · iexact H6
    ipureintro
    rw [← hacc]
    unfold step3
    try unfold reset3
    sl_unfold_words
    rw [View.read_writes_eq_canon _ _ _ (cover3 _ _), View.canon_cons_unit_zero (S := S1024x512) hz3]
    simp only [View.readCov_unit_zero (S := S1024x512) _ hz3, View.readAt_eq_ld, harg2.read_unread, harg3.read_unread, harg6.read_unread,
      View.ld_unit_zero (S := S1024x1024) hz3, View.ld_unit_zero (S := S1024x512) hz3]

theorem hcond3_0 : ∀ t : Fin cfg3.N, cond3_0 (grid3.coords t) ↔ t.val % 10 = 0 := by decide +kernel
theorem hcond3_1 : ∀ t : Fin cfg3.N, k3_cond2 (grid3.coords t) = 1#1 ↔ t.val % 10 = 9 := by decide +kernel
theorem idle3_3 : ∀ t : Fin cfg3.N, cfg3.idle 3 (cfg3.grid.coords t) = true ↔ t.val % 10 ≠ 9 := by decide +kernel

theorem before3 (c : Dev nD) (t : Fin cfg3.N) :
    (∀ d, (dat3 V c).before 0 t d = iblk3 V c 0 t) ∧ (∀ d, (dat3 V c).before 1 t d = iblk3 V c 1 t)
      ∧ ∀ d, (dat3 V c).before 2 t d = iblk3 V c 2 t := by
  refine ⟨fun d => ?_, fun d => ?_, fun d => ?_⟩ <;>
    exact ((dat3 V c).before_in_eq_fetched _ rfl (fun _ => rfl) (fun _ _ _ => rfl) (fun _ => rfl) t d).trans rfl

theorem leaves3_3 (c : Dev nD) (t : Fin cfg3.N) (d) :
    owns (c : Thread nD τ) (win3_3.stage (cfg3.slots t 3)) fullShare (if k3_cond2 (grid3.coords t) = 1#1
        then out3_3 (grid3.coords t) (accAfter3 V c t.val t.isLt) (iblk3 V c 2 t) else (dat3 V c).before 3 t d)
      ⊢ ((dat3 V c).leavesExact 3 t : sProp 𝕄) := by
  by_cases h9 : t.val % 10 = 9
  · have hi : cfg3.idle 3 (cfg3.grid.coords t) = false := Bool.eq_false_iff.mpr fun h => (idle3_3 t).mp h h9
    unfold Dat.leavesExact; rw [hi, after3_3, if_pos ((hcond3_1 t).mpr h9)]
  · rw [(dat3 V c).leavesExact_idle 3 t ((idle3_3 t).mpr h9) (Bool.eq_false_iff.mpr fun h => h9 ((flush3_3 t).mp h)),
      if_neg fun h => h9 ((hcond3_1 t).mp h)]
    iintro H; iexists d; iexact H

-- the invariant's sum so far, one step on, is the sum through this point
theorem acc_step3 (c : Dev nD) (t : Fin cfg3.N) (f : Vec F S1024x512 .f32)
    (hf : ∀ h : 0 < t.castSucc.val, t.castSucc.val % 10 ≠ 0 →
      f = accAfter3 V c (t.castSucc.val - 1) (Nat.lt_of_lt_of_le (Nat.sub_lt h Nat.one_pos) (Nat.lt_succ_iff.mp t.castSucc.isLt))) :
    step3 (if cond3_0 (grid3.coords t) then reset3 else f) (iblk3 V c 0 t) (iblk3 V c 1 t) = accAfter3 V c t.val t.isLt := by
  by_cases h0 : t.val % 10 = 0
  · rw [if_pos ((hcond3_0 t).mpr h0)]; exact (accAfter3_first V c t h0).symm
  · rw [if_neg fun h => h0 ((hcond3_0 t).mp h), hf (Nat.pos_of_ne_zero fun e => h0 (by rw [show t.val = 0 from e])) h0]
    exact (accAfter3_next V c t h0).symm

theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (win3_3.stage (cfg3.slots t 3)) fullShare ((dat3 V c).before 3 t d)))
    ⊢ wp frame (wpE (defs₀ (F := F)) Variants.none c none) Set.univ (bodyAt3 t) (fun _ =>
      iprop(Φ3 V c t.succ ∗ (dat3 V c).owesAt () t.castSucc
        ∗ owns (c : Thread nD τ) (win3_0.stage (cfg3.slots t 0)) fullShare (iblk3 V c 0 t)
        ∗ owns (c : Thread nD τ) (win3_1.stage (cfg3.slots t 1)) fullShare (iblk3 V c 1 t)
        ∗ owns (c : Thread nD τ) (win3_2.stage (cfg3.slots t 2)) fullShare (iblk3 V c 2 t) ∗ (dat3 V c).leavesExact 3 t)) := by
  unfold bodyAt3
  simp only [(before3 V c t).1, (before3 V c t).2.1, (before3 V c t).2.2]
  rw [Φ_eq3]
  unfold Φ3
  iintro ⟨⟨⟨%f, Hs, %hf⟩, Hrest, Hr⟩, Ho, ⟨%da, Ha⟩, ⟨%db, Hb⟩, ⟨%dc, Hc⟩, ⟨%dd, Hd⟩⟩
  iapply (run3 c (grid3.coords t) _ _ _ _ _ _ _ _ _ _
    (fun h h' => by have := (hcond3_0 t).mp h; have := (hcond3_1 t).mp h'; omega)
    (iblk3 V c 0 t) (iblk3 V c 1 t) (iblk3 V c 2 t) _ f _ (acc_step3 V c t f hf) Set.univ _)
  iframe Ha Hb Hc Hd Hs
  iintro ⟨Ha, Hb, Hc, Hd, Hs⟩
  iframe Hrest Hr Ho Ha Hb Hc
  isplitl [Hs]
  · iexists _
    isplitl [Hs]
    · iexact Hs
    · ipureintro; intro _ _; rfl
  iapply (leaves3_3 V c t dd); iexact Hd

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Agg5.lean ====
import proofs.«425200_j18691697672407_2_alg».proof.Proof.Gen.KernelIdeal.Launch
import proofs.«425200_j18691697672407_2_alg».proof.Proof.Gen.KernelIdeal.Skeleton
import proofs.«425200_j18691697672407_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def reset5 : Vec F S1024x256 .f32 := k5_pay1

def step5 (acc : Vec F S1024x256 .f32) (a : Vec F S1024x1024 .bf16) (s : Vec F S1024x256 .bf16) : Vec F S1024x256 .f32 :=
  k5_pay2 acc a s

-- the sum of a tile's products so far; it starts again at every tenth point
def accAfter5 (c : Dev nD) : (n : ℕ) → n < cfg5.N → Vec F S1024x256 .f32
  | 0, hn => step5 reset5 (iblk5 V c 0 ⟨0, hn⟩) (iblk5 V c 1 ⟨0, hn⟩)
  | n + 1, hn =>
    if (n + 1) % 10 = 0 then step5 reset5 (iblk5 V c 0 ⟨n + 1, hn⟩) (iblk5 V c 1 ⟨n + 1, hn⟩)
    else step5 (accAfter5 c n (Nat.lt_of_succ_lt hn)) (iblk5 V c 0 ⟨n + 1, hn⟩) (iblk5 V c 1 ⟨n + 1, hn⟩)

abbrev rO5 : Rect S1024x256 := Rect.unit (s := S1024x256) ![0, 0] S1024x256.size inb_S1024x256_S1024x256_0_0

def out5_3 (i : grid5.Coords) (acc : Vec F S1024x256 .f32) (b : Vec F S1x256 .f32) : Vec F S1024x256 .f32 :=
  View.canon [⟨rO5, k5_pay3 i acc b⟩]

-- the invariant: past the first of a tile's ten points the accumulator is the sum so far
def Φ5 (c : Dev nD) (t : Fin (cfg5.N + 1)) : sProp 𝕄 :=
  iprop((∃ f : Vec F S1024x256 .f32, owns (c : Thread nD τ) (Memref.whole cc5_scratch0) fullShare f
      ∗ ⌜∀ h : 0 < t.val, t.val % 10 ≠ 0 →
          f = accAfter5 V c (t.val - 1) (Nat.lt_of_lt_of_le (Nat.sub_lt h Nat.one_pos) (Nat.lt_succ_iff.mp t.isLt))⌝)
    ∗ Pipeline.scopedRestBut (Ix := Unit) (Name := ℕ) (U := UR sig nD τ) (Lvl := ℕ) (Val := Elt F) spec5 c [cc5_scratch0]
    ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (grid5.coords t) (accAfter5 V c t.val t.isLt) (iblk5 V c 2 t)
  Φ t := Φ5 V c t
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) :
    (dat5 V c).after 3 t = out5_3 (grid5.coords t) (accAfter5 V c t.val t.isLt) (iblk5 V c 2 t) := by dsimp only [dat5]
theorem Φ_eq5 (c : Dev nD) (t : Fin (cfg5.N + 1)) : (dat5 V c).Φ t = Φ5 V c t := by dsimp only [dat5]

theorem accAfter5_first (c : Dev nD) (t : Fin cfg5.N) (h : t.val % 10 = 0) :
    accAfter5 V c t.val t.isLt = step5 reset5 (iblk5 V c 0 t) (iblk5 V c 1 t) := by
  obtain ⟨n, hn⟩ := t
  cases n with
  | zero => exact rfl
  | succ n => exact (if_pos h).trans rfl
theorem accAfter5_next (c : Dev nD) (t : Fin cfg5.N) (h : t.val % 10 ≠ 0) :
    accAfter5 V c t.val t.isLt
      = step5 (accAfter5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact (if_neg h).trans rfl

theorem Φ5_in (c : Dev nD) :
    iprop((∃ r, prngReg c r) ∗ Pipeline.scopedRest (Ix := Unit) (Name := ℕ) (U := UR sig nD τ) (Lvl := ℕ) (Val := Elt F) spec5 c)
      ⊢ (Φ5 V c 0 : sProp 𝕄) := by
  rw [scopedRest5_split]
  unfold Φ5
  iintro ⟨Hr, ⟨%f, Hf⟩, Hrest⟩
  iframe Hrest Hr
  iexists f
  isplitl [Hf]
  · rw [owns_whole]; iexact Hf
  · ipureintro; intro h; exact absurd h (lt_irrefl 0)

theorem Φ5_out (c : Dev nD) :
    (Φ5 V c (Fin.last cfg5.N) : sProp 𝕄)
      ⊢ iprop((∃ r, prngReg c r) ∗ Pipeline.scopedRest (Ix := Unit) (Name := ℕ) (U := UR sig nD τ) (Lvl := ℕ) (Val := Elt F) spec5 c) := by
  rw [scopedRest5_split]
  unfold Φ5
  simp only [owns_whole]
  iintro ⟨⟨%f, Hf, -⟩, Hrest, Hr⟩
  iframe Hr Hrest
  iexists f; iexact Hf

abbrev cond5_0 (i : grid5.Coords) : Prop :=
  (Scalar.cmpi .ne (Scalar.extui (Scalar.cmpi .eq (BitVec.ofNat 32 (i 1).val) 0#32)) 0#32) = 1#1

theorem hcond5_0 : ∀ t : Fin cfg5.N, cond5_0 (grid5.coords t) ↔ t.val % 10 = 0 := by decide +kernel

theorem hcond5_1 : ∀ t : Fin cfg5.N, k5_cond2 (grid5.coords t) = 1#1 ↔ t.val % 10 = 9 := by decide +kernel

theorem hz5 : (![0, 0] : Fin 2 → Nat) = fun _ => 0 := funext fun a => by fin_cases a <;> rfl

theorem cover5 {e : EltTy} (p : View.Piece (Elt F) S1024x256 e) (hp : p.1 = rO5) (L : List (View.Piece (Elt F) S1024x256 e))
    (y : S1024x256.Idx) : ∃ q ∈ p :: L, y ∈ q.1.set :=
  ⟨p, List.mem_cons.mpr (Or.inl rfl), by rw [hp]; exact View.mem_set_unit_zero hz5 inb_S1024x256_S1024x256_0_0 y⟩

set_option maxHeartbeats 1000000 in
-- all three kinds of point at once: the two conditions say where the sum starts and whether the output tile is made
theorem run5 (c : Dev nD) (i : grid5.Coords)
    (arg2 : Memref sig .tc .vmem S1024x1024 .bf16) (harg2 : arg2.IsWhole)
    (arg3 : Memref sig .tc .vmem S1024x256 .bf16) (harg3 : arg3.IsWhole)
    (arg4 : Memref sig .tc .vmem S1x256 .f32) (harg4 : arg4.IsWhole)
    (arg5 : Memref sig .tc .vmem S1024x256 .f32) (harg5 : arg5.IsWhole)
    (arg6 : Memref sig .tc .vmem S1024x256 .f32) (harg6 : arg6.IsWhole)
    (hFL : cond5_0 i → ¬ k5_cond2 i = 1#1)
    (a : Vec F S1024x1024 .bf16) (s : Vec F S1024x256 .bf16) (b : Vec F S1x256 .f32) (o : Vec F S1024x256 .f32) (f : Vec F S1024x256 .f32)
    (acc' : Vec F S1024x256 .f32) (hacc : step5 (if cond5_0 i then reset5 else f) a s = acc') (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare o ∗ owns (c : Thread nD τ) arg6 fullShare f
        ∗ (iprop(owns (c : Thread nD τ) arg2 fullShare a ∗ owns (c : Thread nD τ) arg3 fullShare s ∗ owns (c : Thread nD τ) arg4 fullShare b
            ∗ owns (c : Thread nD τ) arg5 fullShare (if k5_cond2 i = 1#1 then out5_3 i acc' b else o)
            ∗ owns (c : Thread nD τ) arg6 fullShare acc') -∗ K ⟨⟩))
      ⊢ wp frame (wpE (defs₀ (F := F)) Variants.none c none) E (cc5__agg_final_kernel i arg2 harg2 arg3 harg3 arg4 harg4 arg5 harg5 arg6 harg6) K := by
  by_cases hcF : cond5_0 i <;> by_cases hcL : k5_cond2 i = 1#1
  · exact absurd hcL (hFL hcF)
  all_goals
    first | rw [if_pos hcF] at hacc | rw [if_neg hcF] at hacc
    first | rw [if_pos hcL] | rw [if_neg hcL]
    simp only [cc5__agg_final_kernel_eq_skeleton]; unfold cc5__agg_final_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hcF | exact hcL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | rw [← hacc]
        sl_unfold_words
        unfold out5_3 step5
        rw [View.read_writes_eq_canon _ _ _ (cover5 _ rfl _)]
        simp only [View.readCov_unit_zero (S := S1024x256) _ hz5, View.readAt_eq_ld,
          harg6.read_unread, harg2.read_unread, harg3.read_unread, harg4.read_unread,
          View.ld_unit_zero (S := S1024x256) hz5, View.ld_unit_zero (S := S1024x1024) hz5, View.ld_unit_zero (S := S1x256) hz5]
      | exact harg5.read_unread _
    iexists _; isplitr
    swap; · iexact H6
    ipureintro
    rw [← hacc]
    sl_unfold_words
    unfold step5
    try unfold reset5
    rw [View.read_writes_eq_canon _ _ _ (cover5 _ rfl _), View.canon_cons_unit_zero hz5]
    simp only [View.readCov_unit_zero (S := S1024x256) _ hz5, View.readAt_eq_ld,
      harg6.read_unread, harg2.read_unread, harg3.read_unread, harg4.read_unread,
      View.ld_unit_zero (S := S1024x256) hz5, View.ld_unit_zero (S := S1024x1024) hz5, View.ld_unit_zero (S := S1x256) hz5]

theorem idle5_3_off : ∀ t : Fin cfg5.N, t.val % 10 ≠ 9 → cfg5.idle 3 (grid5.coords t) = true := by decide +kernel
theorem idle5_3_on : ∀ t : Fin cfg5.N, t.val % 10 = 9 → cfg5.idle 3 (grid5.coords t) = false := by decide +kernel

theorem before5 (c : Dev nD) (t : Fin cfg5.N) :
    (∀ d, (dat5 V c).before 0 t d = iblk5 V c 0 t) ∧ (∀ d, (dat5 V c).before 1 t d = iblk5 V c 1 t)
      ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

theorem leaves5_3 (c : Dev nD) (t : Fin cfg5.N) (d) :
    owns (c : Thread nD τ) (win5_3.stage (cfg5.slots t 3)) fullShare (if k5_cond2 (grid5.coords t) = 1#1
        then out5_3 (grid5.coords t) (accAfter5 V c t.val t.isLt) (iblk5 V c 2 t) else (dat5 V c).before 3 t d)
      ⊢ ((dat5 V c).leavesExact 3 t : sProp 𝕄) := by
  by_cases h9 : t.val % 10 = 9
  · unfold Dat.leavesExact; rw [idle5_3_on t h9, after5_3, if_pos ((hcond5_1 t).mpr h9)]
  · rw [(dat5 V c).leavesExact_idle 3 t (idle5_3_off t h9) (Bool.eq_false_iff.mpr fun h => h9 ((flush5_3 t).mp h)),
      if_neg fun h => h9 ((hcond5_1 t).mp h)]
    iintro H; iexists d; iexact H

-- the invariant's sum so far, one step on, is the sum through this point
theorem acc_step5 (c : Dev nD) (t : Fin cfg5.N) (f : Vec F S1024x256 .f32)
    (hf : ∀ h : 0 < t.castSucc.val, t.castSucc.val % 10 ≠ 0 →
      f = accAfter5 V c (t.castSucc.val - 1) (Nat.lt_of_lt_of_le (Nat.sub_lt h Nat.one_pos) (Nat.lt_succ_iff.mp t.castSucc.isLt))) :
    step5 (if cond5_0 (grid5.coords t) then reset5 else f) (iblk5 V c 0 t) (iblk5 V c 1 t) = accAfter5 V c t.val t.isLt := by
  by_cases h0 : t.val % 10 = 0
  · rw [if_pos ((hcond5_0 t).mpr h0)]; exact (accAfter5_first V c t h0).symm
  · rw [if_neg fun h => h0 ((hcond5_0 t).mp h), hf (Nat.pos_of_ne_zero fun e => h0 (by rw [show t.val = 0 from e])) h0]
    exact (accAfter5_next V c t h0).symm

theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d))
      ∗ (∃ d, owns (c : Thread nD τ) (win5_3.stage (cfg5.slots t 3)) fullShare ((dat5 V c).before 3 t d)))
    ⊢ wp frame (wpE (defs₀ (F := F)) Variants.none c none) Set.univ (bodyAt5 t) (fun _ =>
      iprop(Φ5 V c t.succ ∗ (dat5 V c).owesAt () t.castSucc
        ∗ owns (c : Thread nD τ) (win5_0.stage (cfg5.slots t 0)) fullShare (iblk5 V c 0 t)
        ∗ owns (c : Thread nD τ) (win5_1.stage (cfg5.slots t 1)) fullShare (iblk5 V c 1 t)
        ∗ owns (c : Thread nD τ) (win5_2.stage (cfg5.slots t 2)) fullShare (iblk5 V c 2 t) ∗ (dat5 V c).leavesExact 3 t)) := by
  unfold bodyAt5
  simp only [(before5 V c t).1, (before5 V c t).2.1, (before5 V c t).2.2]
  rw [Φ_eq5]
  unfold Φ5
  iintro ⟨⟨⟨%f, Hs, %hf⟩, Hrest, Hr⟩, Ho, ⟨%da, Ha⟩, ⟨%db, Hb⟩, ⟨%dc, Hc⟩, ⟨%dd, Hd⟩⟩
  iapply (run5 c (grid5.coords t) _ _ _ _ _ _ _ _ _ _
    (fun h h' => by have := (hcond5_0 t).mp h; have := (hcond5_1 t).mp h'; omega)
    (iblk5 V c 0 t) (iblk5 V c 1 t) (iblk5 V c 2 t) _ f _ (acc_step5 V c t f hf) Set.univ _)
  iframe Ha Hb Hc Hd Hs
  iintro ⟨Ha, Hb, Hc, Hd, Hs⟩
  iframe Hrest Hr Ho Ha Hb Hc
  isplitl [Hs]
  · iexists _
    isplitl [Hs]
    · iexact Hs
    · ipureintro; intro _ _; rfl
  iapply (leaves5_3 V c t dd); iexact Hd

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«425200_j18691697672407_2_alg».proof.Proof.KI.Lin0
import proofs.«425200_j18691697672407_2_alg».proof.Proof.KI.Lin2
import proofs.«425200_j18691697672407_2_alg».proof.Proof.KI.Lin4
import proofs.«425200_j18691697672407_2_alg».proof.Proof.KI.Agg1
import proofs.«425200_j18691697672407_2_alg».proof.Proof.KI.Agg3
import proofs.«425200_j18691697672407_2_alg».proof.Proof.KI.Agg5
import proofs.«425200_j18691697672407_2_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev W3 (c : Dev nD) : Valuation τ sig (Elt F) := V3 m c
def W4 (c : Dev nD) : Valuation τ sig (Elt F) :=
  Function.update (W3 m c) main_v24 ((dat0 (fun c b => W3 m c b) c).arrAt 2 cfg0.N)
def W5 (c : Dev nD) : Valuation τ sig (Elt F) :=
  Function.update (W4 m c) main_v25 ((dat1 (fun c b => W4 m c b) c).arrAt 3 cfg1.N)
def W6 (c : Dev nD) : Valuation τ sig (Elt F) :=
  Function.update (W5 m c) main_v26 ((dat2 (fun c b => W5 m c b) c).arrAt 2 cfg2.N)
def W7 (c : Dev nD) : Valuation τ sig (Elt F) :=
  Function.update (W6 m c) main_v27 ((dat3 (fun c b => W6 m c b) c).arrAt 3 cfg3.N)
def W8 (c : Dev nD) : Valuation τ sig (Elt F) :=
  Function.update (W7 m c) main_v28 ((dat4 (fun c b => W7 m c b) c).arrAt 2 cfg4.N)
def W9 (c : Dev nD) : Valuation τ sig (Elt F) :=
  Function.update (W8 m c) main_v29 ((dat5 (fun c b => W8 m c b) c).arrAt 3 cfg5.N)
def W10 (c : Dev nD) : Valuation τ sig (Elt F) := StableHlo.after hostOps6 (W9 m c)

theorem W4_out (c : Dev nD) : W4 m c main_v24 = (dat0 (fun c b => W3 m c b) c).arrAt 2 cfg0.N := Function.update_self ..
theorem W5_out (c : Dev nD) : W5 m c main_v25 = (dat1 (fun c b => W4 m c b) c).arrAt 3 cfg1.N := Function.update_self ..
theorem W6_out (c : Dev nD) : W6 m c main_v26 = (dat2 (fun c b => W5 m c b) c).arrAt 2 cfg2.N := Function.update_self ..
theorem W7_out (c : Dev nD) : W7 m c main_v27 = (dat3 (fun c b => W6 m c b) c).arrAt 3 cfg3.N := Function.update_self ..
theorem W8_out (c : Dev nD) : W8 m c main_v28 = (dat4 (fun c b => W7 m c b) c).arrAt 2 cfg4.N := Function.update_self ..
theorem W9_out (c : Dev nD) : W9 m c main_v29 = (dat5 (fun c b => W8 m c b) c).arrAt 3 cfg5.N := Function.update_self ..

/-- A valuation updated at one reference is unchanged at every other. -/
theorem upd_of {V : Valuation τ sig (Elt F)} {r b : Ref sig .tc} {x} (h : b ∉ ([r] : List (Ref sig .tc))) :
    Function.update V r x b = V b :=
  Function.update_of_ne (StableHlo.devRef_ne_of_ne (List.ne_of_not_mem_cons h)) ..
theorem W4_of (c : Dev nD) (b : Ref sig .tc) (h : b ∉ ([main_v24] : List (Ref sig .tc))) : W4 m c b = W3 m c b := upd_of h
theorem W5_of (c : Dev nD) (b : Ref sig .tc) (h : b ∉ ([main_v25] : List (Ref sig .tc))) : W5 m c b = W4 m c b := upd_of h
theorem W6_of (c : Dev nD) (b : Ref sig .tc) (h : b ∉ ([main_v26] : List (Ref sig .tc))) : W6 m c b = W5 m c b := upd_of h
theorem W7_of (c : Dev nD) (b : Ref sig .tc) (h : b ∉ ([main_v27] : List (Ref sig .tc))) : W7 m c b = W6 m c b := upd_of h
theorem W8_of (c : Dev nD) (b : Ref sig .tc) (h : b ∉ ([main_v28] : List (Ref sig .tc))) : W8 m c b = W7 m c b := upd_of h
theorem W9_of (c : Dev nD) (b : Ref sig .tc) (h : b ∉ ([main_v29] : List (Ref sig .tc))) : W9 m c b = W8 m c b := upd_of h

def outs : Outs (F := F) := fun J r c =>
  match J with
  | 4 => W4 m c r
  | 5 => W5 m c r
  | 6 => W6 m c r
  | 7 => W7 m c r
  | 8 => W8 m c r
  | 9 => W9 m c r
  | _ => W3 m c r

/-- Updating at `r` with the value an update at `r` already has there gives that update. -/
theorem upd_eq {V V' : Valuation τ sig (Elt F)} (h : V = V') (r : DevRef τ sig) (x : r.ty.Contents (Elt F)) :
    Function.update V r (Function.update V' r x r) = Function.update V' r x := by rw [h, Function.update_self]
theorem V4_eq (c : Dev nD) : V4 m (outs m) c = W4 m c := upd_eq rfl ..
theorem V5_eq (c : Dev nD) : V5 m (outs m) c = W5 m c := upd_eq (V4_eq m c) ..
theorem V6_eq (c : Dev nD) : V6 m (outs m) c = W6 m c := upd_eq (V5_eq m c) ..
theorem V7_eq (c : Dev nD) : V7 m (outs m) c = W7 m c := upd_eq (V6_eq m c) ..
theorem V8_eq (c : Dev nD) : V8 m (outs m) c = W8 m c := upd_eq (V7_eq m c) ..
theorem V9_eq (c : Dev nD) : V9 m (outs m) c = W9 m c := upd_eq (V8_eq m c) ..
theorem V10_eq (c : Dev nD) : V10 m (outs m) c = W10 m c := congrArg (StableHlo.after hostOps6) (V9_eq m c)

theorem W10_main_arg0 (c : Dev nD) : W10 m c main_arg0 = m ((c : Thread nD τ).loc main_arg0) := V10_eq m c ▸ V10_main_arg0 m (outs m) c
theorem W10_main_arg1 (c : Dev nD) : W10 m c main_arg1 = m ((c : Thread nD τ).loc main_arg1) := V10_eq m c ▸ V10_main_arg1 m (outs m) c
theorem W10_main_arg2 (c : Dev nD) : W10 m c main_arg2 = m ((c : Thread nD τ).loc main_arg2) := V10_eq m c ▸ V10_main_arg2 m (outs m) c
theorem W10_main_arg3 (c : Dev nD) : W10 m c main_arg3 = m ((c : Thread nD τ).loc main_arg3) := V10_eq m c ▸ V10_main_arg3 m (outs m) c
theorem W10_main_arg4 (c : Dev nD) : W10 m c main_arg4 = m ((c : Thread nD τ).loc main_arg4) := V10_eq m c ▸ V10_main_arg4 m (outs m) c
theorem W10_main_arg5 (c : Dev nD) : W10 m c main_arg5 = m ((c : Thread nD τ).loc main_arg5) := V10_eq m c ▸ V10_main_arg5 m (outs m) c
theorem W10_main_arg6 (c : Dev nD) : W10 m c main_arg6 = m ((c : Thread nD τ).loc main_arg6) := V10_eq m c ▸ V10_main_arg6 m (outs m) c
theorem W10_main_arg7 (c : Dev nD) : W10 m c main_arg7 = m ((c : Thread nD τ).loc main_arg7) := V10_eq m c ▸ V10_main_arg7 m (outs m) c
theorem W10_main_arg8 (c : Dev nD) : W10 m c main_arg8 = m ((c : Thread nD τ).loc main_arg8) := V10_eq m c ▸ V10_main_arg8 m (outs m) c
theorem W10_main_arg9 (c : Dev nD) : W10 m c main_arg9 = m ((c : Thread nD τ).loc main_arg9) := V10_eq m c ▸ V10_main_arg9 m (outs m) c

def pdats : (p : Fin 6) → (c : Dev nD) → Dat τ (Elt F) Unit ℕ (UR sig nD τ) ℕ (Pipeline.pin (pcfgs (F := F)) adm p) c
  | ⟨0, _⟩ => fun c => dat0 (fun c b => W3 m c b) c
  | ⟨1, _⟩ => fun c => dat1 (fun c b => W4 m c b) c
  | ⟨2, _⟩ => fun c => dat2 (fun c b => W5 m c b) c
  | ⟨3, _⟩ => fun c => dat3 (fun c b => W6 m c b) c
  | ⟨4, _⟩ => fun c => dat4 (fun c b => W7 m c b) c
  | ⟨5, _⟩ => fun c => dat5 (fun c b => W8 m c b) c

abbrev L₀ : GSem nD τ sig → Finset Unit := fun _ => ∅
abbrev lv₀ : GSem nD τ sig → Unit → ℕ := fun _ _ => 0

abbrev R (c : Dev nD) : sProp 𝕄 :=
  iprop((∃ r, prngReg c r) ∗ ∃ W, owes (c : Thread nD τ) (0 : CellTallies nD τ sig Unit) W)

set_option backward.isDefEq.respectTransparency.types false in
/-- Region `p` as a segment from contents `Vi` to contents `Vo`, which differ only at the region's output array. -/
def mkReg (p : Fin 6) (lw : Pipeline.LaunchFacts (nD := nD) (τ := τ) cfgs p) (Vi Vo : Dev nD → Valuation τ sig (Elt F)) (o : Fin (cfgs p).W)
    (hb : ∀ c, BodyObligation (pdats m p c) (defs₀ (F := F)) Variants.none () Set.univ)
    (hΦi : ∀ c, iprop((∃ r, prngReg c r) ∗ Pipeline.scopedRest (cfgs p).spec c) ⊢ (pdats m p c).Φ 0)
    (hΦo : ∀ c, (pdats m p c).Φ (Fin.last (cfgs p).N) ⊢ iprop((∃ r, prngReg c r) ∗ Pipeline.scopedRest (cfgs p).spec c))
    (hVo : ∀ c, Vo c (Pipeline.arrRef (cfgs p).spec o) = (pdats m p c).arrAt o (cfgs p).N)
    (hof : ∀ c (b : Ref sig .tc), b ∉ ([Pipeline.arrRef (cfgs p).spec o] : List (Ref sig .tc)) → Vo c b = Vi c b)
    (hA : ∀ c w, (pdats m p c).A w = Vi c (Pipeline.arrRef (cfgs p).spec w) := by exact fun _ _ => rfl)
    (hq : ∀ c w, (pdats m p c).q w = fullShare := by exact fun _ _ => rfl)
    (h0 : ∀ c t, (pdats m p c).owed t = 0 := by exact fun _ _ => rfl)
    (hr : ∀ c, (pdats m p c).recorded 0 = Set.univ := by exact fun _ => rfl)
    (hio : ∀ w, w ≠ o → ((cfgs p).win w).isOut = false := by decide) :
    RegionSeg (pcfgs (F := F)) adm (pdats m) () defs₀ Variants.none L₀ lv₀ p where
  win := lw.win.to₀
  block_pos := lw.block_pos
  stage_whole := lw.stage_whole
  K := PEmpty
  osem k := k.elim
  ho := Pipeline.OwnSemFacts.none _
  hbody c := (hb c).loose
  hwaits := Pipeline.hwaits_of_owed_zero _ _ _ _ L₀ lv₀ p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c (fun b => Vi c b)
  hentry c := by
    unfold Pipeline.Dat.owesAt Pipeline.owesWithin
    rw [Pipeline.ownSems0_none, h0 c]
    have hsplit := Pipeline.arrays_of_unscopedBufs (p := p) (pcfgs (F := F)) adm (pdats m) lw.win lw.arr_whole c
      ((pdats m p c).share_full (hq c)) (fun b => Vi c b) (hA c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · icases Howes with ⟨%W, Howes⟩; iexists W
      isplitr; · ipureintro; exact fun _ _ => Or.inl (hr c ▸ trivial)
      iexact Howes
    isplitl [Hprng]; · iexact Hprng
    iexact Hrest
  hin c := by
    iintro ⟨Hprng, -, Hscoped⟩
    iapply hΦi c
    isplitl [Hprng]; · iexact Hprng
    iexact Hscoped
  hout c := by
    rw [Pipeline.ownSems0_none]
    refine (hΦo c).trans ?_
    iintro ⟨Hprng, Hscoped⟩
    isplitl [Hprng]; · iexact Hprng
    isplitr; · iempintro
    iexact Hscoped
  hexit c := by
    unfold Pipeline.Dat.owesAt Pipeline.owesWithin
    rw [h0 c]
    have hjoin := Pipeline.unscopedBufs_of_arrays (p := p) (pcfgs (F := F)) adm
      lw.win lw.arr_whole c (pdats m) ((pdats m p c).share_full (hq c))
      (fun b => Vi c b) (fun b => Vo c b) ((pdats m p c).arrAt · (cfgs p).N)
      (fun w => by
        by_cases h : w = o
        · subst h; exact (hVo c).symm
        · exact ((pdats m p c).arrAt_in w (hio w h) _).trans
            ((hA c w).trans (hof c _ fun h' => h (lw.win.arr_inj (List.mem_singleton.1 h'))).symm))
      (fun b hb' => hof c b fun h => hb' (List.mem_singleton.1 h ▸ Finset.mem_image_of_mem _ (Finset.mem_univ o)))
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    icases Howes with ⟨%W, -, Howes⟩; iexists W; iexact Howes

def reg0 := mkReg m 0 launch0 (W3 m) (W4 m) 2 (body_obligation0 fun c b => W3 m c b) (fun _ => sep_comm) (fun _ => sep_comm) (W4_out m) (W4_of m)
def reg1 := mkReg m 1 launch1 (W4 m) (W5 m) 3 (body_obligation1 fun c b => W4 m c b) (Φ1_in _) (Φ1_out _) (W5_out m) (W5_of m)
def reg2 := mkReg m 2 launch2 (W5 m) (W6 m) 2 (body_obligation2 fun c b => W5 m c b) (fun _ => sep_comm) (fun _ => sep_comm) (W6_out m) (W6_of m)
def reg3 := mkReg m 3 launch3 (W6 m) (W7 m) 3 (body_obligation3 fun c b => W6 m c b) (Φ3_in _) (Φ3_out _) (W7_out m) (W7_of m)
def reg4 := mkReg m 4 launch4 (W7 m) (W8 m) 2 (body_obligation4 fun c b => W7 m c b) (fun _ => sep_comm) (fun _ => sep_comm) (W8_out m) (W8_of m)
def reg5 := mkReg m 5 launch5 (W8 m) (W9 m) 3 (body_obligation5 fun c b => W8 m c b) (Φ5_in _) (Φ5_out _) (W9_out m) (W9_of m)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Equal contents give the same assertion, whatever stands beside it. -/
theorem held_congr {c : Dev nD} {V V' : Valuation τ sig (Elt F)} (h : V = V') {P Q : sProp 𝕄} (hPQ : P ⊢ Q) :
    iprop(StableHlo.held (c : Thread nD τ) (Pipeline.ucRefs τ sig) V ∗ P)
      ⊢ iprop(StableHlo.held (c : Thread nD τ) (Pipeline.ucRefs τ sig) V' ∗ Q) := h ▸ sep_mono .rfl hPQ

set_option backward.isDefEq.respectTransparency.types false in
/-- Every execution of @main ends with the buffers at `W10`: ten segments, each entered at the contents the one before leaves. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W10 m c b) := by
  refine Pipeline.θ_run_regions_kit_dev (pcfgs (F := F)) adm (pdats m) () cellOf_inj emb₁ defs₀ Variants.none L₀ lv₀ m ρ main
    (segs m (outs m) Variants.none L₀ lv₀ (fun _ c => R c) () (pdats m) (reg0 m) (reg1 m) (reg2 m) (reg3 m) (reg4 m) (reg5 m))
    (fun c Q => by rewrite [main_chain c, Seg.run_eq_chain]; exact .rfl)
    (fun c => by simp only [segs, Seg.pipes_host, Seg.pipes_region, Seg.pipes_nil]; decide) (fun _ => 0) (fun _ _ => rfl)
    (fun _ => BI.emp) _ (by
      rw [BI.bigSep_emp_const, ownU_emb₁]
      iintro Hu; imodintro
      isplitl [Hu]; · iexact Hu
      iempintro)
    (T₀ := fun c => iprop(StableHlo.held (c : Thread nD τ) (Pipeline.ucRefs τ sig) (V0 m c) ∗ R c))
    (Tₙ := fun c => StableHlo.held (c : Thread nD τ) (Pipeline.ucRefs τ sig) (W10 m c))
    (hch := fun c => ⟨.rfl, .rfl, .rfl, .rfl, .rfl, .rfl, .rfl, .rfl, .rfl, held_congr (V9_eq m c).symm .rfl,
      held_congr (V10_eq m c) (by iintro ⟨-, H⟩; iexact H)⟩)
    (hinit := ?_)
    (QY := fun c s => ∀ b ∈ Pipeline.ucRefs τ sig, s.mem (((c : Thread nD τ)).1, b) = W10 m c b)
    (hfin := fun c s' => ?_) (hQ := fun _ h => h)
  · refine Pipeline.initEach L₀ lv₀ fun c => ?_
    iintro ⟨⟨Hb, -, Howes, -, Hprng, -⟩, -⟩
    imodintro
    isplitl [Hb]
    · rw [← Pipeline.unscopedBufs_held (Ix := Unit) (Name := ℕ) (U := UR sig nD τ) (Lvl := ℕ) c (V0 m c)]; iexact Hb
    isplitl [Hprng]; · iexists _; iexact Hprng
    iexists ∅; iexact Howes
  · unfold StableHlo.held
    iintro ⟨Hh, HSI⟩
    imodintro
    iapply (pointsTo_read_all (Pipeline.ucRefs τ sig) (fun b => ((c : Thread nD τ).1, b)) (W10 m c) s')
    isplitl [Hh] <;> iassumption

/-- Every argument array ends as launched: `W10` at an argument is the launch memory's. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c)⟩)
    (run_all m ρ)

end Cert.KernelIdeal.Hand

end
-- ==== Proof.Model.lean ====
import Mathlib.Data.Real.Basic
import Mathlib.Algebra.BigOperators.Group.Finset.Basic
import Mathlib.Algebra.BigOperators.Ring.Finset
import Mathlib.Algebra.Order.BigOperators.Group.Finset

noncomputable section

open scoped BigOperators

namespace Cert.Gcn

def spmm {E N C : ℕ} (row col : Fin E → Fin N) (val : Fin E → ℝ) (S : Fin N → Fin C → ℝ) : Fin N → Fin C → ℝ :=
  fun r c => ∑ e ∈ Finset.univ.filter (fun e => row e = r), val e * S (col e) c

def lin {N K C : ℕ} (X : Fin N → Fin K → ℝ) (W : Fin K → Fin C → ℝ) : Fin N → Fin C → ℝ :=
  fun r c => ∑ k, X r k * W k c

def layer {E N C : ℕ} (row col : Fin E → Fin N) (val : Fin E → ℝ) (S : Fin N → Fin C → ℝ) (b : Fin C → ℝ) :
    Fin N → Fin C → ℝ :=
  fun r c => spmm row col val S r c + b c

def cat {N C : ℕ} (C2 : ℕ) (hC : 0 < C) (L : Fin N → Fin C → ℝ) : Fin N → Fin C2 → ℝ :=
  fun r c => if h : c.val < C then max (L r ⟨c.val, h⟩) 0 else L r ⟨(c.val - C) % C, Nat.mod_lt _ hC⟩

def adj {E N : ℕ} (row col : Fin E → Fin N) (val : Fin E → ℝ) : Fin N → Fin N → ℝ :=
  fun r j => ∑ e ∈ Finset.univ.filter (fun e => row e = r ∧ col e = j), val e

structure Args where
  x : Fin 10000 → Fin 512 → ℝ
  row : Fin 320000 → Fin 10000
  col : Fin 320000 → Fin 10000
  val : Fin 320000 → ℝ
  W0 : Fin 512 → Fin 512 → ℝ
  W1 : Fin 1024 → Fin 512 → ℝ
  W2 : Fin 1024 → Fin 256 → ℝ
  b0 : Fin 512 → ℝ
  b1 : Fin 512 → ℝ
  b2 : Fin 256 → ℝ

namespace Args

variable (a : Args)

def l0 : Fin 10000 → Fin 512 → ℝ := layer a.row a.col a.val (lin a.x a.W0) a.b0

def x1 : Fin 10000 → Fin 1024 → ℝ := cat 1024 (by decide : 0 < 512) a.l0

def l1 : Fin 10000 → Fin 512 → ℝ := layer a.row a.col a.val (lin a.x1 a.W1) a.b1

def x2 : Fin 10000 → Fin 1024 → ℝ := cat 1024 (by decide : 0 < 512) a.l1

def out : Fin 10000 → Fin 256 → ℝ := layer a.row a.col a.val (lin a.x2 a.W2) a.b2

end Args

end Cert.Gcn

end
-- ==== Proof.Agree.lean ====
import proofs.«425200_j18691697672407_2_alg».proof.Proof.Model
import Idealize.ShloMosaic.Lib.ValueIdx

noncomputable section

namespace Cert.Gcn

open Idealize.ShloMosaic Idealize.ShloMosaic.ValueIdx

def IsMat {n k : ℕ} (X : (⟨2, ![n, k]⟩ : Shape).Idx → EReal) (f : Fin n → Fin k → ℝ) : Prop :=
  ∀ r c, X (ix2 r c) = ((f r c : ℝ) : EReal)

def IsVec {n : ℕ} (X : (⟨1, ![n]⟩ : Shape).Idx → EReal) (f : Fin n → ℝ) : Prop :=
  ∀ e, X (ix1 e) = ((f e : ℝ) : EReal)

def IsIdx {n N : ℕ} (I : (⟨1, ![n]⟩ : Shape).Idx → BitVec 32) (f : Fin n → Fin N) : Prop :=
  ∀ e, (I (ix1 e)).toInt = ((f e).val : ℤ)

theorem IsMat.eq {n k : ℕ} {X : (⟨2, ![n, k]⟩ : Shape).Idx → EReal} {f : Fin n → Fin k → ℝ} (h : IsMat X f) :
    X = fun i => ((f (i 0) (i 1) : ℝ) : EReal) := by
  funext i; rw [eq_ix2 i]; exact h _ _

theorem IsVec.eq {n : ℕ} {X : (⟨1, ![n]⟩ : Shape).Idx → EReal} {f : Fin n → ℝ} (h : IsVec X f) :
    X = fun i => ((f (i 0) : ℝ) : EReal) := by
  funext i; rw [eq_ix1 i]; exact h _

structure Holds (a : Args)
    (x : (⟨2, ![10000, 512]⟩ : Shape).Idx → EReal) (er ec : (⟨1, ![320000]⟩ : Shape).Idx → BitVec 32)
    (ev : (⟨1, ![320000]⟩ : Shape).Idx → EReal)
    (w0 : (⟨2, ![512, 512]⟩ : Shape).Idx → EReal) (w1 : (⟨2, ![1024, 512]⟩ : Shape).Idx → EReal)
    (w2 : (⟨2, ![1024, 256]⟩ : Shape).Idx → EReal)
    (b0 b1 : (⟨1, ![512]⟩ : Shape).Idx → EReal) (b2 : (⟨1, ![256]⟩ : Shape).Idx → EReal) : Prop where
  x : IsMat x a.x
  row : IsIdx er a.row
  col : IsIdx ec a.col
  val : IsVec ev a.val
  W0 : IsMat w0 a.W0
  W1 : IsMat w1 a.W1
  W2 : IsMat w2 a.W2
  b0 : IsVec b0 a.b0
  b1 : IsVec b1 a.b1
  b2 : IsVec b2 a.b2

def outArr (a : Args) : (⟨2, ![10000, 256]⟩ : Shape).Idx → EReal := fun i => ((a.out (i 0) (i 1) : ℝ) : EReal)

end Cert.Gcn

end
-- ==== Proof.Dense.lean ====
import proofs.«425200_j18691697672407_2_alg».proof.Proof.Model

noncomputable section

open scoped BigOperators

namespace Cert.Gcn

def padR {N C : ℕ} (N' : ℕ) (S : Fin N → Fin C → ℝ) : Fin N' → Fin C → ℝ :=
  fun r c => if h : r.val < N then S ⟨r.val, h⟩ c else 0

def padRC {N : ℕ} (N' : ℕ) (A : Fin N → Fin N → ℝ) : Fin N' → Fin N' → ℝ :=
  fun r j => if h : r.val < N ∧ j.val < N then A ⟨r.val, h.1⟩ ⟨j.val, h.2⟩ else 0

def dagg {N C : ℕ} (A : Fin N → Fin N → ℝ) (S : Fin N → Fin C → ℝ) (b : Fin C → ℝ) : Fin N → Fin C → ℝ :=
  fun r c => ∑ j, A r j * S j c + b c

def mask {N C : ℕ} (n : ℕ) (L : Fin N → Fin C → ℝ) : Fin N → Fin C → ℝ :=
  fun r c => if r.val < n then L r c else 0

theorem spmm_eq_adj {E N C : ℕ} (row col : Fin E → Fin N) (val : Fin E → ℝ) (S : Fin N → Fin C → ℝ)
    (r : Fin N) (c : Fin C) :
    spmm row col val S r c = ∑ j, adj row col val r j * S j c := by
  unfold spmm adj
  simp only [Finset.sum_filter, Finset.sum_mul, ite_mul, zero_mul]
  rw [Finset.sum_comm]
  refine Finset.sum_congr rfl (fun e _ => ?_)
  by_cases h : row e = r
  · simp only [h, true_and, if_true]
    rw [Finset.sum_ite_eq]
    simp only [Finset.mem_univ, if_true]
  · simp only [h, false_and, if_false, Finset.sum_const_zero]

theorem layer_eq_dagg {E N C : ℕ} (row col : Fin E → Fin N) (val : Fin E → ℝ) (S : Fin N → Fin C → ℝ)
    (b : Fin C → ℝ) : layer row col val S b = dagg (adj row col val) S b := by
  funext r c
  unfold layer dagg
  rw [spmm_eq_adj]

theorem sum_castLE {N N' : ℕ} (h : N ≤ N') (f : Fin N' → ℝ) (hf : ∀ j : Fin N', N ≤ j.val → f j = 0) :
    ∑ j : Fin N', f j = ∑ j : Fin N, f (Fin.castLE h j) := by
  symm
  refine Finset.sum_of_injOn (Fin.castLE h) (fun x _ y _ hxy => Fin.castLE_injective h hxy)
    (fun _ _ => Finset.mem_coe.2 (Finset.mem_univ _)) (fun i _ hi => ?_) (fun _ _ => rfl)
  apply hf
  by_contra hlt
  exact hi ⟨⟨i.val, Nat.lt_of_not_le hlt⟩, Finset.mem_coe.2 (Finset.mem_univ _), Fin.ext rfl⟩

def RowsEq {N N' C : ℕ} (h : N ≤ N') (X' : Fin N' → Fin C → ℝ) (X : Fin N → Fin C → ℝ) : Prop :=
  ∀ r c, X' (Fin.castLE h r) c = X r c

theorem padR_rows {N N' C : ℕ} (h : N ≤ N') (X : Fin N → Fin C → ℝ) : RowsEq h (padR N' X) X := by
  intro r c
  unfold padR
  rw [dif_pos (show (Fin.castLE h r).val < N from r.isLt)]
  rfl

theorem lin_rows {N N' K C : ℕ} (h : N ≤ N') {X' : Fin N' → Fin K → ℝ} {X : Fin N → Fin K → ℝ}
    (hX : RowsEq h X' X) (W : Fin K → Fin C → ℝ) : RowsEq h (lin X' W) (lin X W) := by
  intro r c
  unfold lin
  exact Finset.sum_congr rfl (fun k _ => by rw [hX r k])

theorem dagg_rows {N N' C : ℕ} (h : N ≤ N') (A : Fin N → Fin N → ℝ) {S' : Fin N' → Fin C → ℝ}
    {S : Fin N → Fin C → ℝ} (hS : RowsEq h S' S) (b : Fin C → ℝ) :
    RowsEq h (dagg (padRC N' A) S' b) (dagg A S b) := by
  intro r c
  unfold dagg
  congr 1
  rw [sum_castLE h]
  · refine Finset.sum_congr rfl (fun j _ => ?_)
    rw [hS j c]
    congr 1
    unfold padRC
    rw [dif_pos (show (Fin.castLE h r).val < N ∧ (Fin.castLE h j).val < N from ⟨r.isLt, j.isLt⟩)]
    rfl
  · intro j hj
    unfold padRC
    rw [dif_neg (fun hh => absurd hh.2 (Nat.not_lt.2 hj)), zero_mul]

theorem mask_rows {N N' C : ℕ} (h : N ≤ N') {L' : Fin N' → Fin C → ℝ} {L : Fin N → Fin C → ℝ}
    (hL : RowsEq h L' L) : RowsEq h (mask N L') L := by
  intro r c
  unfold mask
  rw [if_pos (show (Fin.castLE h r).val < N from r.isLt)]
  exact hL r c

theorem cat_rows {N N' C : ℕ} (h : N ≤ N') (C2 : ℕ) (hC : 0 < C) {L' : Fin N' → Fin C → ℝ}
    {L : Fin N → Fin C → ℝ} (hL : RowsEq h L' L) : RowsEq h (cat C2 hC L') (cat C2 hC L) := by
  intro r c
  unfold cat
  by_cases hc : c.val < C
  · rw [dif_pos hc, dif_pos hc, hL r]
  · rw [dif_neg hc, dif_neg hc, hL r]

namespace Args

variable (a : Args)

def kA : Fin 10240 → Fin 10240 → ℝ := padRC 10240 (adj a.row a.col a.val)

def ks0 : Fin 10240 → Fin 512 → ℝ := lin (padR 10240 a.x) a.W0
def kx1 : Fin 10240 → Fin 1024 → ℝ := cat 1024 (by decide : 0 < 512) (mask 10000 (dagg a.kA a.ks0 a.b0))
def ks1 : Fin 10240 → Fin 512 → ℝ := lin a.kx1 a.W1
def kx2 : Fin 10240 → Fin 1024 → ℝ := cat 1024 (by decide : 0 < 512) (mask 10000 (dagg a.kA a.ks1 a.b1))
def ks2 : Fin 10240 → Fin 256 → ℝ := lin a.kx2 a.W2
def ko : Fin 10240 → Fin 256 → ℝ := mask 10000 (dagg a.kA a.ks2 a.b2)

def kout : Fin 10000 → Fin 256 → ℝ := fun r c => a.ko ⟨r.val, by have := r.isLt; omega⟩ c

theorem kout_eq_out : a.kout = a.out := by
  have hN : (10000 : ℕ) ≤ 10240 := by omega

  have hs0 : RowsEq hN a.ks0 (lin a.x a.W0) := lin_rows hN (padR_rows hN a.x) a.W0
  have hl0 : RowsEq hN (mask 10000 (dagg a.kA a.ks0 a.b0)) a.l0 := by
    unfold Args.l0 Args.kA
    rw [layer_eq_dagg]
    exact mask_rows hN (dagg_rows hN _ hs0 _)
  have hx1 : RowsEq hN a.kx1 a.x1 := cat_rows hN 1024 _ hl0

  have hs1 : RowsEq hN a.ks1 (lin a.x1 a.W1) := lin_rows hN hx1 a.W1
  have hl1 : RowsEq hN (mask 10000 (dagg a.kA a.ks1 a.b1)) a.l1 := by
    unfold Args.l1 Args.kA
    rw [layer_eq_dagg]
    exact mask_rows hN (dagg_rows hN _ hs1 _)
  have hx2 : RowsEq hN a.kx2 a.x2 := cat_rows hN 1024 _ hl1

  have hs2 : RowsEq hN a.ks2 (lin a.x2 a.W2) := lin_rows hN hx2 a.W2
  have hko : RowsEq hN a.ko a.out := by
    unfold Args.out Args.ko Args.kA
    rw [layer_eq_dagg]
    exact mask_rows hN (dagg_rows hN _ hs2 _)
  funext r c
  exact hko r c

end Args

end Cert.Gcn

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

open scoped BigOperators

namespace Cert.LibScatterGatherRows

open Idealize.ShloMosaic Idealize.ShloMosaic.ValueIdx

-- A row gather reads, at (e, k), row `idx e` (clamped into range) of the table at column k.
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by

  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>

    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>

    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd

  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>

    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>

    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

def idxEquiv1 {n : Nat} : (⟨1, ![n]⟩ : Shape).Idx ≃ Fin n where
  toFun i := i 0
  invFun e := ix1 e
  left_inv i := (eq_ix1 i).symm
  right_inv _ := rfl

theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

end Cert.LibScatterGatherRows
-- ==== Proof.LibScatterAddPairs.lean ====
import Idealize.ShloMosaic.Lib.ValueIdx
import Idealize.ShloMosaic.PureOps.Contract
import proofs.«425200_j18691697672407_2_alg».proof.Proof.LibScatterGatherRows
import Mathlib.Algebra.BigOperators.Group.Finset.Basic
import Mathlib.Algebra.BigOperators.Group.Finset.Piecewise

open scoped BigOperators

namespace Cert.LibScatterAddPairs

open Idealize.ShloMosaic Idealize.ShloMosaic.ValueIdx

theorem resultIdx_pairs {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (idx : IVec ⟨2, ![n, 2]⟩ w) (e : Fin n) (r : Fin N) (j : Fin M) :
    d.resultIdx? (ix1 e) idx = some (ix2 r j)
      ↔ (idx (ix2 e 0)).toInt = (r.val : ℤ) ∧ (idx (ix2 e 1)).toInt = (j.val : ℤ) := by
  obtain ⟨uw, iw, sd, ivd, wf⟩ := d
  simp only at huw hiw hsd hivd
  subst huw hiw hsd hivd

  have hs0 : ScatterDims.start ⟨[], [0, 1], [0, 1], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0, 1] : List (Fin 2)) by decide) ha
  have hs1 : ScatterDims.start ⟨[], [0, 1], [0, 1], 1, wf⟩ (ix1 e) idx 1 = (idx (ix2 e 1)).toInt := by
    unfold ScatterDims.start
    split
    · congr 2
      funext b
      apply Fin.ext
      match b with
      | ⟨0, _⟩ => rfl
      | ⟨1, _⟩ => rfl
    · next ha => exact absurd (show (1 : Fin 2) ∈ ([0, 1] : List (Fin 2)) by decide) ha

  have hw : ∀ a, ScatterDims.window ⟨[], [0, 1], [0, 1], 1, wf⟩ (ix1 e) a = 0 := by
    intro a
    unfold ScatterDims.window
    split
    · next ha => exact absurd ha (show a ∉ ([] : List (Fin 2)) from List.not_mem_nil)
    · rfl
  unfold ScatterDims.resultIdx?
  split
  · next h =>

    constructor
    · intro hf
      have hf' := Option.some.inj hf
      have e0 : (ScatterDims.start ⟨[], [0, 1], [0, 1], 1, wf⟩ (ix1 e) idx 0
          + (ScatterDims.window ⟨[], [0, 1], [0, 1], 1, wf⟩ (ix1 e) 0 : ℕ)).toNat = r.val :=
        congrArg (fun f : (⟨2, ![N, M]⟩ : Shape).Idx => (f 0).val) hf'
      have e1 : (ScatterDims.start ⟨[], [0, 1], [0, 1], 1, wf⟩ (ix1 e) idx 1
          + (ScatterDims.window ⟨[], [0, 1], [0, 1], 1, wf⟩ (ix1 e) 1 : ℕ)).toNat = j.val :=
        congrArg (fun f : (⟨2, ![N, M]⟩ : Shape).Idx => (f 1).val) hf'
      have h0 := (h 0).1
      have h1 := (h 1).1
      rw [hs0, hw] at e0 h0
      rw [hs1, hw] at e1 h1
      exact ⟨by omega, by omega⟩
    · rintro ⟨hr, hj⟩
      congr 1
      funext a
      apply Fin.ext
      match a with
      | ⟨0, _⟩ =>
        show (ScatterDims.start ⟨[], [0, 1], [0, 1], 1, wf⟩ (ix1 e) idx 0
          + (ScatterDims.window ⟨[], [0, 1], [0, 1], 1, wf⟩ (ix1 e) 0 : ℕ)).toNat = r.val
        rw [hs0, hw]; omega
      | ⟨1, _⟩ =>
        show (ScatterDims.start ⟨[], [0, 1], [0, 1], 1, wf⟩ (ix1 e) idx 1
          + (ScatterDims.window ⟨[], [0, 1], [0, 1], 1, wf⟩ (ix1 e) 1 : ℕ)).toNat = j.val
        rw [hs1, hw]; omega
  · next h =>

    constructor
    · intro hf; exact absurd hf (by simp)
    · rintro ⟨hr, hj⟩
      exfalso
      apply h
      intro a
      match a with
      | ⟨0, _⟩ =>
        show 0 ≤ ScatterDims.start ⟨[], [0, 1], [0, 1], 1, wf⟩ (ix1 e) idx 0
            + (ScatterDims.window ⟨[], [0, 1], [0, 1], 1, wf⟩ (ix1 e) 0 : ℕ)
          ∧ ScatterDims.start ⟨[], [0, 1], [0, 1], 1, wf⟩ (ix1 e) idx 0
            + (ScatterDims.window ⟨[], [0, 1], [0, 1], 1, wf⟩ (ix1 e) 0 : ℕ) < (N : ℤ)
        rw [hs0, hw]
        have := r.isLt
        omega
      | ⟨1, _⟩ =>
        show 0 ≤ ScatterDims.start ⟨[], [0, 1], [0, 1], 1, wf⟩ (ix1 e) idx 1
            + (ScatterDims.window ⟨[], [0, 1], [0, 1], 1, wf⟩ (ix1 e) 1 : ℕ)
          ∧ ScatterDims.start ⟨[], [0, 1], [0, 1], 1, wf⟩ (ix1 e) idx 1
            + (ScatterDims.window ⟨[], [0, 1], [0, 1], 1, wf⟩ (ix1 e) 1 : ℕ) < (M : ℤ)
        rw [hs1, hw]
        have := j.isLt
        omega

theorem hostScatterAdd_pairs {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : (⟨2, ![N, M]⟩ : Shape).Idx → EReal) (idx : IVec ⟨2, ![n, 2]⟩ w)
    (upd : (⟨1, ![n]⟩ : Shape).Idx → EReal) (r : Fin N) (j : Fin M) :
    Ideal.hostScatterAdd d x idx upd (ix2 r j)
      = x (ix2 r j)
        + ∑ e ∈ Finset.univ.filter (fun e : Fin n =>
            (idx (ix2 e 0)).toInt = (r.val : ℤ) ∧ (idx (ix2 e 1)).toInt = (j.val : ℤ)), upd (ix1 e) := by
  classical
  unfold Ideal.hostScatterAdd
  congr 1
  rw [Finset.sum_filter, Cert.LibScatterGatherRows.sum_idx1, Finset.sum_filter]
  refine Finset.sum_congr rfl (fun e _ => ?_)
  simp only [resultIdx_pairs d huw hiw hsd hivd]

theorem scatterAdd_pairs {φ : FTy} {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : FVec Ideal ⟨2, ![N, M]⟩ φ) (idx : IVec ⟨2, ![n, 2]⟩ w)
    (upd : FVec Ideal ⟨1, ![n]⟩ φ) (r : Fin N) (j : Fin M) :
    Host.scatterAdd (F := Ideal) d x idx upd (ix2 r j)
      = x (ix2 r j)
        + ∑ e ∈ Finset.univ.filter (fun e : Fin n =>
            (idx (ix2 e 0)).toInt = (r.val : ℤ) ∧ (idx (ix2 e 1)).toInt = (j.val : ℤ)), upd (ix1 e) := by
  unfold Host.scatterAdd
  rw [Ideal.hostScatterAdd_def]
  exact hostScatterAdd_pairs d huw hiw hsd hivd x idx upd r j

end Cert.LibScatterAddPairs
-- ==== Proof.KI.HostVal.lean ====
import proofs.«425200_j18691697672407_2_alg».proof.Proof.Gen.KernelIdeal.Regions
import proofs.«425200_j18691697672407_2_alg».proof.Proof.Agree
import proofs.«425200_j18691697672407_2_alg».proof.Proof.Dense
import proofs.«425200_j18691697672407_2_alg».proof.Proof.LibScatterGatherRows
import proofs.«425200_j18691697672407_2_alg».proof.Proof.LibScatterAddPairs
import Idealize.ShloMosaic.Lib.ValueIdx
import Idealize.ShloMosaic.Lib.Pipeline.Value
import Idealize.ShloMosaic.Lib.ValueLayout
import Idealize.ShloMosaic.Lib.KernelVsHost
import Idealize.ShloMosaic.Lib.StableHlo.Run
import Idealize.ShloMosaic.PureOps.Ideal.Laws

noncomputable section

open scoped BigOperators

namespace Cert.KernelIdeal.HostVal

open Cert.KernelIdeal Cert.KernelIdeal.Gen
open Idealize.ShloMosaic Idealize.ShloMosaic.TcCoe Idealize.ShloMosaic.ValueIdx
open Cert.Gcn

variable (m : (ℓ : Loc nD τ sig) → Buf (Elt Ideal) ℓ) (c : Dev nD)

theorem coe_sum {ι : Type} (s : Finset ι) (f : ι → ℝ) : ((∑ i ∈ s, f i : ℝ) : EReal) = ∑ i ∈ s, ((f i : ℝ) : EReal) := by
  classical
  induction s using Finset.induction_on with
  | empty => simp
  | insert x s hx ih => rw [Finset.sum_insert hx, Finset.sum_insert hx, EReal.coe_add, ih]

theorem e_v18 : (Gen.V3 (F := Ideal) m c main_v18 : FVec Ideal S512x512 .bf16)
    = (truncf (F := Ideal) .bf16 (Gen.V0 (F := Ideal) m c main_arg4 : FVec Ideal S512x512 .f32) bitsLt_bf16_f32 : FVec Ideal S512x512 .bf16) := by
  dsimp only [Gen.V3, Gen.V2, Gen.V1, Gen.V0, hostOps0_2]
  after_results

theorem e_v19 : (Gen.V3 (F := Ideal) m c main_v19 : FVec Ideal S1024x512 .bf16)
    = (truncf (F := Ideal) .bf16 (Gen.V0 (F := Ideal) m c main_arg5 : FVec Ideal S1024x512 .f32) bitsLt_bf16_f32 : FVec Ideal S1024x512 .bf16) := by
  dsimp only [Gen.V3, Gen.V2, Gen.V1, Gen.V0, hostOps0_2]
  after_results

theorem e_v20 : (Gen.V3 (F := Ideal) m c main_v20 : FVec Ideal S1024x256 .bf16)
    = (truncf (F := Ideal) .bf16 (Gen.V0 (F := Ideal) m c main_arg6 : FVec Ideal S1024x256 .f32) bitsLt_bf16_f32 : FVec Ideal S1024x256 .bf16) := by
  dsimp only [Gen.V3, Gen.V2, Gen.V1, Gen.V0, hostOps0_2]
  after_results

theorem e_v21 : (Gen.V3 (F := Ideal) m c main_v21 : FVec Ideal S1x512 .f32)
    = shapeCast S1x512 (Gen.V0 (F := Ideal) m c main_arg7 : FVec Ideal S512 .f32) shapeCasts_S512_S1x512 := by
  dsimp only [Gen.V3, Gen.V2, Gen.V1, Gen.V0, hostOps0_2]
  after_results
  rfl

theorem e_v22 : (Gen.V3 (F := Ideal) m c main_v22 : FVec Ideal S1x512 .f32)
    = shapeCast S1x512 (Gen.V0 (F := Ideal) m c main_arg8 : FVec Ideal S512 .f32) shapeCasts_S512_S1x512 := by
  dsimp only [Gen.V3, Gen.V2, Gen.V1, Gen.V0, hostOps0_2]
  after_results
  rfl

theorem e_v23 : (Gen.V3 (F := Ideal) m c main_v23 : FVec Ideal S1x256 .f32)
    = shapeCast S1x256 (Gen.V0 (F := Ideal) m c main_arg9 : FVec Ideal S256 .f32) shapeCasts_S256_S1x256 := by
  dsimp only [Gen.V3, Gen.V2, Gen.V1, Gen.V0, hostOps0_2]
  after_results
  rfl

theorem isMat_row {n : ℕ} (x : (⟨1, ![n]⟩ : Shape).Idx → EReal) (h : (⟨1, ![n]⟩ : Shape).ShapeCasts ⟨2, ![1, n]⟩)
    (f : Fin n → ℝ) (hx : IsVec x f) : IsMat (shapeCast ⟨2, ![1, n]⟩ x h) (fun _ k => f k) := by
  intro r k
  rw [shapeCast_a_1a_apply]
  exact hx k

theorem e_v17 : (Gen.V3 (F := Ideal) m c main_v17 : FVec Ideal S10240x512 .bf16)
    = (truncf (F := Ideal) .bf16
        (pad S10240x512 ![0, 0] ![240, 0] ![0, 0] (Gen.V0 (F := Ideal) m c main_arg0 : FVec Ideal S10000x512 .f32)
          (sitofp (F := Ideal) .f32 (constantI S_ 32 0#32) : FVec Ideal S_ .f32)
          pads_S10000x512_S10240x512_02400_000 h_S_ : FVec Ideal S10240x512 .f32)
        bitsLt_bf16_f32 : FVec Ideal S10240x512 .bf16) := by
  dsimp only [Gen.V3, Gen.V2, Gen.V1, Gen.V0, hostOps0_2, hostOps0_1, hostOps0]
  after_results
  rfl

theorem isMat_padRows (x : FVec Ideal S10000x512 .f32) (f : Fin 10000 → Fin 512 → ℝ) (hx : IsMat x f) :
    IsMat (pad S10240x512 ![0, 0] ![240, 0] ![0, 0] x (sitofp (F := Ideal) .f32 (constantI S_ 32 0#32) : FVec Ideal S_ .f32)
      pads_S10000x512_S10240x512_02400_000 h_S_) (padR 10240 f) := by
  intro r k
  unfold padR
  by_cases hr : r.val < 10000
  · rw [dif_pos hr, ← hx ⟨r.val, hr⟩ k]
    refine pad_apply_of_inside _ _ _ _ _ _ _ _ _ (fun ax => ?_)
    match ax with
    | ⟨0, _⟩ => show r.val = 0 + r.val * (0 + 1); omega
    | ⟨1, _⟩ => show k.val = 0 + k.val * (0 + 1); omega
  · rw [dif_neg hr]
    refine (pad_apply_of_not_inside _ _ _ _ _ _ _ _ (0 : Fin 2) ?_).trans ?_
    · show ¬(0 ≤ r.val ∧ (r.val - 0) % (0 + 1) = 0 ∧ (r.val - 0) / (0 + 1) < 10000)
      rw [Nat.sub_zero, Nat.zero_add, Nat.div_one]
      exact fun h => hr h.2.2
    · show (((0#32 : BitVec 32).toInt : ℝ) : EReal) = ((0 : ℝ) : EReal)
      simp

theorem e_v30 (W9 : Valuation τ sig (Elt Ideal)) : (StableHlo.after hostOps6 W9 main_v30 : FVec Ideal S10000x256 .f32)
    = extractStridedSlice S10000x256 ![0, 0] (W9 main_v29 : FVec Ideal S10240x256 .f32) slices_S10240x256_S10000x256_0_0 := by
  dsimp only [hostOps6]
  after_results

def wrapIdx (er : IVec S320000 32) : IVec S320000 32 :=
  select (cmpi .slt er (broadcastInDim S320000 ![] bcast_S_S320000 (constantI S_ 32 0#32)))
    (addi er (broadcastInDim S320000 ![] bcast_S_S320000 (constantI S_ 32 10240#32))) er

def pairsOf (er ec : IVec S320000 32) : IVec S320000x2 32 :=
  concatenate S320000x2 1
    [⟨S320000x1, broadcastInDim S320000x1 ![0] bcast_S320000_S320000x1_0 (wrapIdx er)⟩,
     ⟨S320000x1, broadcastInDim S320000x1 ![0] bcast_S320000_S320000x1_0 (wrapIdx ec)⟩]
    concatenates_S320000x1_S320000x1_S320000x2_d1

def denseOf (er ec : IVec S320000 32) (ev : FVec Ideal S320000 .f32) : FVec Ideal S10240x10240 .bf16 :=
  truncf (F := Ideal) .bf16
    (Host.scatterAdd (F := Ideal) scatter_S10240x10240_S320000x2_S320000_n_01_01_1
      (broadcastInDim S10240x10240 ![] bcast_S_S10240x10240 (constant (F := Ideal) S_ .f32 0x00000000#32))
      (pairsOf er ec) ev)
    bitsLt_bf16_f32

set_option maxHeartbeats 2000000 in
theorem e_v15 : (Gen.V3 (F := Ideal) m c main_v15 : FVec Ideal S10240x10240 .bf16)
    = denseOf (Gen.V0 (F := Ideal) m c main_arg1) (Gen.V0 (F := Ideal) m c main_arg2) (Gen.V0 (F := Ideal) m c main_arg3) := by
  rw [Gen.V3_of m c main_v15 (by decide), Gen.V2_of m c main_v15 (by decide)]
  dsimp only [Gen.V1, Gen.V0, hostOps0]
  after_results_simp
  rfl

theorem bcastWord_apply (b : BitVec 32) (i : S320000.Idx) :
    broadcastInDim S320000 ![] bcast_S_S320000 (constantI S_ 32 b) i = b :=
  broadcastInDim_apply _ _ _ i ix0 (fun a => a.elim0)

theorem wrapIdx_apply (er : IVec S320000 32) (e : Fin 320000) (h : 0 ≤ (er (ix1 e)).toInt) :
    wrapIdx er (ix1 e) = er (ix1 e) := by
  unfold wrapIdx
  rw [select_apply]
  have hc : cmpi .slt er (broadcastInDim S320000 ![] bcast_S_S320000 (constantI S_ 32 0#32)) (ix1 e) = 0#1 := by
    show IntOp.cmpi .slt (er (ix1 e)) (broadcastInDim S320000 ![] bcast_S_S320000 (constantI S_ 32 0#32) (ix1 e)) = 0#1
    rw [bcastWord_apply]
    show BitVec.ofBool ((er (ix1 e)).slt 0#32) = 0#1
    have hs : (er (ix1 e)).slt 0#32 = false := by
      unfold BitVec.slt
      rw [decide_eq_false_iff_not, show (0#32 : BitVec 32).toInt = 0 from rfl]
      omega
    rw [hs]
    rfl
  rw [hc, select_zero]

theorem pairsOf_row (er ec : IVec S320000 32) (e : Fin 320000) : pairsOf er ec (ix2 e 0) = wrapIdx er (ix1 e) := by
  unfold pairsOf
  refine (concatenate_pair_apply_left (s₁ := S320000x1) (s₂ := S320000x1) _ _ _ _ (ix2 e (0 : Fin 2)) rfl (ix2 e (0 : Fin 1)) (fun b => ?_)).trans ?_
  · match b with
    | ⟨0, _⟩ => rfl
    | ⟨1, _⟩ => rfl
  · exact broadcastInDim_apply _ _ _ _ (ix1 e) (fun a => by
      match a with
      | ⟨0, _⟩ => exact (if_neg (show ¬ ((320000 : ℕ) = 1) by decide)).symm)

theorem pairsOf_col (er ec : IVec S320000 32) (e : Fin 320000) : pairsOf er ec (ix2 e 1) = wrapIdx ec (ix1 e) := by
  unfold pairsOf
  refine (concatenate_pair_apply_right (s₁ := S320000x1) (s₂ := S320000x1) _ _ _ _ (ix2 e (1 : Fin 2)) rfl rfl (ix2 e (0 : Fin 1)) (fun b hb => ?_) rfl).trans ?_
  · match b with
    | ⟨0, _⟩ => rfl
    | ⟨1, _⟩ => exact absurd rfl hb
  · exact broadcastInDim_apply _ _ _ _ (ix1 e) (fun a => by
      match a with
      | ⟨0, _⟩ => exact (if_neg (show ¬ ((320000 : ℕ) = 1) by decide)).symm)

theorem denseOf_apply (er ec : IVec S320000 32) (ev : FVec Ideal S320000 .f32) (r j : Fin 10240) :
    denseOf er ec ev (ix2 r j)
      = ∑ e ∈ Finset.univ.filter (fun e : Fin 320000 =>
          (pairsOf er ec (ix2 e 0)).toInt = (r.val : ℤ) ∧ (pairsOf er ec (ix2 e 1)).toInt = (j.val : ℤ)), ev (ix1 e) := by
  unfold denseOf
  rw [truncf_apply, Cert.LibScatterAddPairs.scatterAdd_pairs scatter_S10240x10240_S320000x2_S320000_n_01_01_1 rfl rfl rfl rfl,
    broadcastInDim_apply _ _ _ (ix2 r j) ix0 (fun a => a.elim0), constant_apply, Ideal.ofBits_zero_f32, zero_add]

theorem isMat_denseOf (er ec : IVec S320000 32) (ev : FVec Ideal S320000 .f32)
    (row col : Fin 320000 → Fin 10000) (val : Fin 320000 → ℝ)
    (hr : IsIdx er row) (hc : IsIdx ec col) (hv : IsVec ev val) :
    IsMat (denseOf er ec ev) (padRC 10240 (adj row col val)) := by
  intro r j
  rw [denseOf_apply]
  have hrow : ∀ e, (pairsOf er ec (ix2 e 0)).toInt = ((row e).val : ℤ) := fun e => by
    rw [pairsOf_row, wrapIdx_apply _ _ (by rw [hr e]; exact Int.natCast_nonneg _)]
    exact hr e
  have hcol : ∀ e, (pairsOf er ec (ix2 e 1)).toInt = ((col e).val : ℤ) := fun e => by
    rw [pairsOf_col, wrapIdx_apply _ _ (by rw [hc e]; exact Int.natCast_nonneg _)]
    exact hc e
  unfold padRC adj
  by_cases h : r.val < 10000 ∧ j.val < 10000
  ·
    rw [dif_pos h, coe_sum]
    refine Finset.sum_congr (Finset.filter_congr fun e _ => ?_) (fun e _ => hv e)
    rw [hrow e, hcol e]
    constructor
    · rintro ⟨h0, h1⟩
      exact ⟨Fin.ext (by show (row e).val = r.val; omega), Fin.ext (by show (col e).val = j.val; omega)⟩
    · rintro ⟨h0, h1⟩
      exact ⟨by rw [h0], by rw [h1]⟩
  ·
    rw [dif_neg h]
    have hempty : Finset.univ.filter (fun e : Fin 320000 =>
        (pairsOf er ec (ix2 e 0)).toInt = (r.val : ℤ) ∧ (pairsOf er ec (ix2 e 1)).toInt = (j.val : ℤ)) = ∅ :=
      Finset.filter_eq_empty_iff.mpr (fun e _ hP => by
        rw [hrow e, hcol e] at hP
        have h0 := (row e).isLt
        have h1 := (col e).isLt
        exact h ⟨by omega, by omega⟩)
    rw [hempty, Finset.sum_empty]
    rfl

section Holds

variable (a : Args)
  (hH : Holds a (Gen.V0 (F := Ideal) m c main_arg0) (Gen.V0 (F := Ideal) m c main_arg1) (Gen.V0 (F := Ideal) m c main_arg2)
    (Gen.V0 (F := Ideal) m c main_arg3) (Gen.V0 (F := Ideal) m c main_arg4) (Gen.V0 (F := Ideal) m c main_arg5)
    (Gen.V0 (F := Ideal) m c main_arg6) (Gen.V0 (F := Ideal) m c main_arg7) (Gen.V0 (F := Ideal) m c main_arg8)
    (Gen.V0 (F := Ideal) m c main_arg9))
include hH

theorem host_A : IsMat (Gen.V3 (F := Ideal) m c main_v15) a.kA := by
  rw [e_v15]
  exact isMat_denseOf _ _ _ a.row a.col a.val hH.row hH.col hH.val

theorem host_x : IsMat (Gen.V3 (F := Ideal) m c main_v17) (padR 10240 a.x) := by
  rw [e_v17]
  intro r k
  rw [truncf_apply]
  exact isMat_padRows _ a.x hH.x r k

theorem host_W0 : IsMat (Gen.V3 (F := Ideal) m c main_v18) a.W0 := by
  rw [e_v18]
  exact hH.W0
theorem host_W1 : IsMat (Gen.V3 (F := Ideal) m c main_v19) a.W1 := by
  rw [e_v19]
  exact hH.W1
theorem host_W2 : IsMat (Gen.V3 (F := Ideal) m c main_v20) a.W2 := by
  rw [e_v20]
  exact hH.W2

theorem host_b0 : IsMat (Gen.V3 (F := Ideal) m c main_v21) (fun _ k => a.b0 k) := by
  rw [e_v21]
  exact isMat_row _ _ a.b0 hH.b0
theorem host_b1 : IsMat (Gen.V3 (F := Ideal) m c main_v22) (fun _ k => a.b1 k) := by
  rw [e_v22]
  exact isMat_row _ _ a.b1 hH.b1
theorem host_b2 : IsMat (Gen.V3 (F := Ideal) m c main_v23) (fun _ k => a.b2 k) := by
  rw [e_v23]
  exact isMat_row _ _ a.b2 hH.b2

end Holds

theorem host_out (W9 : Valuation τ sig (Elt Ideal)) (O : Fin 10240 → Fin 256 → ℝ) (hO : IsMat (W9 main_v29) O) :
    IsMat (StableHlo.after hostOps6 W9 main_v30) (fun r k => O ⟨r.val, by have := r.isLt; omega⟩ k) := by
  intro r k
  rw [e_v30]
  exact (slice2_axis0_apply 0 (W9 main_v29 : FVec Ideal S10240x256 .f32) slices_S10240x256_S10000x256_0_0 r k
    ⟨r.val, by have := r.isLt; omega⟩ (Nat.zero_add _).symm).trans (hO _ _)

end Cert.KernelIdeal.HostVal
end
-- ==== Proof.KI.ValLib.lean ====
import proofs.«425200_j18691697672407_2_alg».proof.Proof.Gen.KernelIdeal
import proofs.«425200_j18691697672407_2_alg».proof.Proof.Agree
import proofs.«425200_j18691697672407_2_alg».proof.Proof.Dense
import Idealize.ShloMosaic.Lib.ValueIdx
import Idealize.ShloMosaic.Lib.Pipeline.Value
import Idealize.ShloMosaic.Lib.Pipeline.FrameBody
import Idealize.ShloMosaic.PureOps.Ideal.Laws
import Idealize.ShloMosaic.Lib.ValueLayout
import Idealize.ShloMosaic.Lib.StableHlo.Predicate
import Idealize.ShloMosaic.Lib.StackMember

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

-- The coercion of the reals into the extended reals is additive, so it passes through finite sums.
theorem coe_sum_real {ι : Type*} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

-- `K` consecutive blocks of `B` terms are the first `B * K` terms.
theorem sum_range_blocks (B : ℕ) (f : ℕ → ℝ) : ∀ K : ℕ,
    ∑ kk ∈ Finset.range K, ∑ j ∈ Finset.range B, f (B * kk + j) = ∑ x ∈ Finset.range (B * K), f x
  | 0 => by simp
  | K + 1 => by
    rw [Finset.sum_range_succ, sum_range_blocks B f K, Nat.mul_succ, Finset.sum_range_add]

-- A real matrix read at natural-number coordinates, zero outside its extents: sums over `Finset.range` can then be cut into blocks.
def ext2 {n k : ℕ} (f : Fin n → Fin k → ℝ) (r c : ℕ) : ℝ := if h : r < n ∧ c < k then f ⟨r, h.1⟩ ⟨c, h.2⟩ else 0

theorem ext2_of_lt {n k : ℕ} (f : Fin n → Fin k → ℝ) {r c : ℕ} (hr : r < n) (hc : c < k) : ext2 f r c = f ⟨r, hr⟩ ⟨c, hc⟩ :=
  dif_pos ⟨hr, hc⟩

-- An array that holds a real matrix, read at an index whose two coordinates are known as numbers.
theorem isMat_at {n k : ℕ} {X : (⟨2, ![n, k]⟩ : Shape).Idx → EReal} {f : Fin n → Fin k → ℝ} (h : Cert.Gcn.IsMat X f)
    (i : (⟨2, ![n, k]⟩ : Shape).Idx) (r c : ℕ) (hr : (i 0).val = r) (hc : (i 1).val = c) :
    X i = ((ext2 f r c : ℝ) : EReal) := by
  subst hr hc
  rw [ext2_of_lt f (i 0).isLt (i 1).isLt]
  exact (congrArg X (eq_ix2 i)).trans (h (i 0) (i 1))

-- A product into a zero accumulator is the reference's product, which the library reads at an index for every plain matrix product.
theorem matmul_plain_apply {m k n : ℕ} (a : FVec Ideal ⟨2, ![m, k]⟩ .bf16) (s : FVec Ideal ⟨2, ![k, n]⟩ .bf16) (p : Fin m) (q : Fin n) :
    FloatOps.matmul (F := Ideal) (DotDims.plain m k n) none a s (constant (F := Ideal) ⟨2, ![m, n]⟩ .f32 0x00000000#32) (ix2 p q)
      = ∑ j : Fin k, a (ix2 p j) * s (ix2 j q) :=
  (congrFun (matmul_zero_eq_dotGeneral _ none a s) _).trans (StackMember.dotGeneral_plain_apply none a s p q)

-- The sum over the first `n` column blocks of row `r` of the matrix times column `q` of the features.
def part {m : ℕ} (A : Fin 10240 → Fin 10240 → ℝ) (S : Fin 10240 → Fin m → ℝ) (r : ℕ) (q : Fin m) (n : ℕ) : ℝ :=
  ∑ kk ∈ Finset.range n, ∑ j ∈ Finset.range 1024, ext2 A r (1024 * kk + j) * ext2 S (1024 * kk + j) q.val

-- All ten column blocks are the whole row.
theorem part_full {m : ℕ} (A : Fin 10240 → Fin 10240 → ℝ) (S : Fin 10240 → Fin m → ℝ) (r : Fin 10240) (q : Fin m) :
    part A S r.val q 10 = ∑ j : Fin 10240, A r j * S j q := by
  unfold part
  refine (sum_range_blocks 1024 (fun x => ext2 A r.val x * ext2 S x q.val) 10).trans ?_
  show ∑ x ∈ Finset.range 10240, ext2 A r.val x * ext2 S x q.val = _
  rw [← Fin.sum_univ_eq_sum_range (fun x => ext2 A r.val x * ext2 S x q.val) 10240]
  exact Finset.sum_congr rfl fun j _ => by rw [ext2_of_lt A r.isLt j.isLt, ext2_of_lt S j.isLt q.isLt]

-- A scratch that restarts at every tenth point with the product of that point's two blocks, and otherwise adds the product to what the point before left, holds after point `n = 10 i + k` the partial row sums over column blocks `0 … k`: by induction on the point.
theorem blockacc_apply {m N : ℕ} (A : Fin 10240 → Fin 10240 → ℝ) (S : Fin 10240 → Fin m → ℝ)
    (acc : (n : ℕ) → n < N → Vec Ideal ⟨2, ![1024, m]⟩ .f32)
    (a : (n : ℕ) → n < N → Vec Ideal ⟨2, ![1024, 1024]⟩ .bf16) (s : (n : ℕ) → n < N → Vec Ideal ⟨2, ![1024, m]⟩ .bf16)
    (ha : ∀ n h p j, a n h (ix2 p j) = ((ext2 A (1024 * (n / 10) + p.val) (1024 * (n % 10) + j.val) : ℝ) : EReal))
    (hs : ∀ n h j q, s n h (ix2 j q) = ((ext2 S (1024 * (n % 10) + j.val) q.val : ℝ) : EReal))
    (h0 : ∀ n h, n % 10 = 0 → ∀ p q, acc n h (ix2 p q) = ∑ j : Fin 1024, a n h (ix2 p j) * s n h (ix2 j q))
    (h1 : ∀ n (h : n + 1 < N), (n + 1) % 10 ≠ 0 → ∀ p q, acc (n + 1) h (ix2 p q)
      = acc n (Nat.lt_of_succ_lt h) (ix2 p q) + ∑ j : Fin 1024, a (n + 1) h (ix2 p j) * s (n + 1) h (ix2 j q))
    (p : Fin 1024) (q : Fin m) : ∀ (n : ℕ) (h : n < N),
    acc n h (ix2 p q) = ((part A S (1024 * (n / 10) + p.val) q (n % 10 + 1) : ℝ) : EReal) := by
  have hd : ∀ n h, ∑ j : Fin 1024, a n h (ix2 p j) * s n h (ix2 j q)
      = ((∑ j ∈ Finset.range 1024, ext2 A (1024 * (n / 10) + p.val) (1024 * (n % 10) + j)
          * ext2 S (1024 * (n % 10) + j) q.val : ℝ) : EReal) := fun n h => by
    rw [← Fin.sum_univ_eq_sum_range (fun j => ext2 A (1024 * (n / 10) + p.val) (1024 * (n % 10) + j)
      * ext2 S (1024 * (n % 10) + j) q.val) 1024, coe_sum_real]
    exact Finset.sum_congr rfl fun j _ => by rw [ha, hs, EReal.coe_mul]
  have hf : ∀ n h, n % 10 = 0 → acc n h (ix2 p q) = ((part A S (1024 * (n / 10) + p.val) q (n % 10 + 1) : ℝ) : EReal) :=
    fun n h hm => by
      rw [h0 n h hm, hd, hm]
      unfold part
      rw [Finset.sum_range_one]
  intro n
  induction n with
  | zero => exact fun h => hf 0 h rfl
  | succ n ih =>
    intro h
    by_cases hm : (n + 1) % 10 = 0
    · exact hf _ h hm
    · rw [h1 n h hm, ih, hd, ← EReal.coe_add]
      unfold part
      rw [show n / 10 = (n + 1) / 10 by omega, show n % 10 + 1 = (n + 1) % 10 by omega,
        Finset.sum_range_succ _ ((n + 1) % 10)]

-- The row number `1024 i + p` is compared with 10000 as a 32-bit word; the words are small, so nothing wraps: the finished sum plus the bias on a node's row, zero from row 10000 on.
theorem maskbias_apply {m : ℕ} (i : ℕ) (hi : i < 10) (acc : Vec Ideal ⟨2, ![1024, m]⟩ .f32) (bias : Vec Ideal ⟨2, ![1, m]⟩ .f32)
    (hio : (⟨2, ![1024, m]⟩ : Shape).Iotas .tc 32 [0]) (hbc : (⟨2, ![1, m]⟩ : Shape).Broadcasts ⟨2, ![1024, m]⟩)
    (p : Fin 1024) (q : Fin m) :
    select (cmpi .slt (addi (broadcast ⟨2, ![1024, m]⟩ (Scalar.muli (BitVec.ofNat 32 i) 1024#32))
          (iota .tc ⟨2, ![1024, m]⟩ 32 [0] hio)) (broadcast ⟨2, ![1024, m]⟩ 10000#32))
        (addf acc (broadcastTo ⟨2, ![1024, m]⟩ bias hbc))
        (broadcast ⟨2, ![1024, m]⟩ (FloatOps.ofBits (F := Ideal) .f32 0x00000000#32)) (ix2 p q)
      = if 1024 * i + p.val < 10000 then acc (ix2 p q) + bias (ix2 0 q) else 0 := by
  have hp := p.isLt
  have hw : (IntOp.addi (Scalar.muli (BitVec.ofNat 32 i) 1024#32) (BitVec.ofNat 32 p.val)).toNat = 1024 * i + p.val := by
    unfold IntOp.addi Scalar.muli IntOp.muli
    rw [BitVec.toNat_add, BitVec.toNat_mul, BitVec.toNat_ofNat, BitVec.toNat_ofNat, BitVec.toNat_ofNat]
    omega
  have hlt := StableHlo.Predicate.slt_iff_toNat
    (a := IntOp.addi (Scalar.muli (BitVec.ofNat 32 i) 1024#32) (BitVec.ofNat 32 p.val)) (b := 10000#32)
    (by rw [hw]; omega) (by decide)
  rw [hw, show (10000#32 : BitVec 32).toNat = 10000 by decide] at hlt
  rw [select_apply]
  have hc : cmpi .slt (addi (broadcast ⟨2, ![1024, m]⟩ (Scalar.muli (BitVec.ofNat 32 i) 1024#32))
      (iota .tc ⟨2, ![1024, m]⟩ 32 [0] hio)) (broadcast ⟨2, ![1024, m]⟩ 10000#32) (ix2 p q)
      = IntOp.cmpi .slt (IntOp.addi (Scalar.muli (BitVec.ofNat 32 i) 1024#32) (BitVec.ofNat 32 p.val)) 10000#32 := by
    show IntOp.cmpi .slt (IntOp.addi _ (iota .tc ⟨2, ![1024, m]⟩ 32 [0] hio (ix2 p q))) _ = _
    rw [iota_single_apply]
    rfl
  rw [hc]
  by_cases h : 1024 * i + p.val < 10000
  · rw [if_pos h, hlt.mpr h, select_one, addf_apply, broadcastTo_1b_ab_apply]
  · rw [if_neg h, eq_zero_of_ne_one fun h1 => h (hlt.mp h1), select_zero]
    exact Ideal.ofBits_zero_f32

-- Where the scratch holds all ten blocks' sum of row `r` and the bias block holds the bias, the finishing payload holds the masked aggregation.
theorem maskdagg_apply {m : ℕ} (A : Fin 10240 → Fin 10240 → ℝ) (S : Fin 10240 → Fin m → ℝ) (b : Fin m → ℝ)
    (r : Fin 10240) (q : Fin m) (x β : EReal) (hx : x = ((part A S r.val q 10 : ℝ) : EReal)) (hβ : β = ((b q : ℝ) : EReal)) :
    (if r.val < 10000 then x + β else 0) = ((Cert.Gcn.mask 10000 (Cert.Gcn.dagg A S b) r q : ℝ) : EReal) := by
  subst hx hβ
  rw [part_full]
  unfold Cert.Gcn.mask Cert.Gcn.dagg
  by_cases hlt : r.val < 10000
  · rw [if_pos hlt, if_pos hlt, EReal.coe_add]
  · rw [if_neg hlt, if_neg hlt, EReal.coe_zero]

abbrev rLo : Rect S1024x1024 := Rect.unit (s := S1024x1024) ![0, 0] S1024x512.size inb_S1024x1024_S1024x512_0_0
abbrev rHi : Rect S1024x1024 := Rect.unit (s := S1024x1024) ![0, 512] S1024x512.size inb_S1024x1024_S1024x512_0_512

-- Two stores side by side, the later one in the columns from 512 on: where row `p` of `x` is row `r` of a real matrix, and the earlier store holds the positive parts of `x` and the later one `x` itself, row `p` of the tile is row `r` of the matrix with its positive parts in front.
theorem cattile_apply {N : ℕ} (x : Vec Ideal S1024x512 .f32) (w5 w4 : Vec Ideal S1024x512 .bf16)
    (h4 : ∀ p q, w4 (ix2 p q) = max (x (ix2 p q)) 0) (h5 : ∀ p q, w5 (ix2 p q) = x (ix2 p q))
    (L : Fin N → Fin 512 → ℝ) (r : Fin N) (p : Fin 1024) (hx : ∀ q, x (ix2 p q) = ((L r q : ℝ) : EReal)) (cc : Fin 1024) :
    View.canon (Val := Elt Ideal) [(⟨rHi, w5⟩ : View.Piece (Elt Ideal) S1024x1024 .bf16), ⟨rLo, w4⟩] (ix2 p cc)
      = ((Cert.Gcn.cat 1024 (by decide : 0 < 512) L r cc : ℝ) : EReal) := by
  have hcc : cc.val < 1024 := cc.isLt
  unfold Cert.Gcn.cat
  by_cases h : cc.val < 512
  · rw [dif_pos h]
    have hnot : (ix2 p cc : S1024x1024.Idx) ∉ (⟨rHi, w5⟩ : View.Piece (Elt Ideal) S1024x1024 .bf16).1.set := fun hm => by
      have hm' : (ix2 p cc : S1024x1024.Idx)
          ∈ (Rect.unit (s := S1024x1024) ![0, 512] S1024x512.size inb_S1024x1024_S1024x512_0_512).set := hm
      have h1 : 512 ≤ cc.val := (Rect.mem_set_unit.mp hm' 1).1
      omega
    refine (View.canon_cons_of_not_mem (⟨rHi, w5⟩ : View.Piece (Elt Ideal) S1024x1024 .bf16) [⟨rLo, w4⟩] hnot).trans ?_
    have he : (ix2 p cc : S1024x1024.Idx) = rLo.emb (ix2 p ⟨cc.val, h⟩) := funext fun a => Fin.ext (by
      match a with
      | ⟨0, _⟩ => show p.val = 0 + 1 * p.val; omega
      | ⟨1, _⟩ => show cc.val = 0 + 1 * cc.val; omega)
    rw [he]
    refine (View.canon_cons_emb rLo w4 [] (ix2 p ⟨cc.val, h⟩)).trans ?_
    rw [h4, hx]
    exact (EReal.coe_strictMono.monotone.map_max).symm
  · rw [dif_neg h]
    have he : (ix2 p cc : S1024x1024.Idx) = rHi.emb (ix2 p ⟨cc.val - 512, by omega⟩) := funext fun a => Fin.ext (by
      match a with
      | ⟨0, _⟩ => show p.val = 0 + 1 * p.val; omega
      | ⟨1, _⟩ => show cc.val = 512 + 1 * (cc.val - 512); omega)
    rw [he]
    refine (View.canon_cons_emb rHi w5 [⟨rLo, w4⟩] (ix2 p ⟨cc.val - 512, by omega⟩)).trans ?_
    rw [h5, hx]
    have hm : (cc.val - 512) % 512 = cc.val - 512 := Nat.mod_eq_of_lt (by omega)
    simp only [hm]

theorem hz2 : (![0, 0] : Fin 2 → Nat) = fun _ => 0 := funext fun a => match a with | ⟨0, _⟩ => rfl | ⟨1, _⟩ => rfl

-- A sum of products of entries of two arrays that hold real matrices is the entry of the real product.
theorem lin_entry {N K C : ℕ} {Xa : (⟨2, ![N, K]⟩ : Shape).Idx → EReal} {Wa : (⟨2, ![K, C]⟩ : Shape).Idx → EReal}
    {X : Fin N → Fin K → ℝ} {W : Fin K → Fin C → ℝ} (hX : Cert.Gcn.IsMat Xa X) (hW : Cert.Gcn.IsMat Wa W)
    (r : Fin N) (q : Fin C) (x w : Fin K → EReal) (hx : ∀ k, x k = Xa (ix2 r k)) (hw : ∀ k, w k = Wa (ix2 k q)) :
    ∑ k, x k * w k = ((Cert.Gcn.lin X W r q : ℝ) : EReal) := by
  unfold Cert.Gcn.lin
  rw [coe_sum_real]
  exact Finset.sum_congr rfl fun k _ => by rw [hx k, hw k, hX r k, hW k q, EReal.coe_mul]

-- An array read at an index whose two coordinates are known as numbers.
theorem at_eq {n k : ℕ} {α : Type} (X : (⟨2, ![n, k]⟩ : Shape).Idx → α) (i : (⟨2, ![n, k]⟩ : Shape).Idx) (r : Fin n) (c : Fin k)
    (hr : (i 0).val = r.val) (hc : (i 1).val = c.val) : X i = X (ix2 r c) :=
  congrArg X (Shape.idx_ext₂ hr hc)

end Cert.KernelIdeal.Hand

end
-- ==== Proof.KI.LinVal0.lean ====
import proofs.«425200_j18691697672407_2_alg».proof.Proof.KI.Lin0
import proofs.«425200_j18691697672407_2_alg».proof.Proof.KI.ValLib

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem linPay0_apply (x : Vec Ideal S1024x512 .bf16) (w : Vec Ideal S512x512 .bf16) (p : Fin 1024) (q : Fin 512) :
    k0_pay1 (F := Ideal) x w (ix2 p q) = ∑ k : Fin 512, x (ix2 p k) * w (ix2 k q) := by
  unfold k0_pay1
  rw [shapeCast_self, shapeCast_self, truncf_apply]
  simp only [matmul]
  exact matmul_plain_apply x w p q

abbrev linArr0 (X : Fin 10240 → Fin 512 → ℝ) (W : Fin 512 → Fin 512 → ℝ) : S10240x512.Idx → EReal :=
  fun i => ((Cert.Gcn.lin X W (i 0) (i 1) : ℝ) : EReal)

-- The tile the body leaves is the product of its two blocks.
theorem linOut0_eq {F : FTy → Type} [FloatOps F] (x0 : Vec F S1024x512 .bf16) (x1 : Vec F S512x512 .bf16) :
    out0_2 x0 x1 = k0_pay1 x0 x1 := by
  unfold out0_2
  rw [View.canon_unit_zero hz2]
  simp only [View.ld_unit_zero (S := S1024x512) hz2, View.ld_unit_zero (S := S512x512) hz2]

-- The block indices at point `t`: the left and the product tiles sit at block row `t`, the right matrix is one block.
theorem linIdx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

-- Tile `t` of the output is rows `1024 t …` of the left matrix times the whole right matrix.
theorem linFlushed0_eq (c : Dev nD) (X : Fin 10240 → Fin 512 → ℝ) (W : Fin 512 → Fin 512 → ℝ)
    (hX : Cert.Gcn.IsMat (V c main_v17) X) (hW : Cert.Gcn.IsMat (V c main_v18) W) (t : Fin cfg0.N) :
    (dat0 (F := Ideal) V c).flushed 2 t = ((cfg0.win 2).blk t).view.read (Elt Ideal) (linArr0 X W) := by
  show (cfg0.win 2).cut (grid0.coords t) ((dat0 (F := Ideal) V c).after 2 t) = _
  rw [after0_2, linOut0_eq]
  obtain ⟨e0, e1, e2, e3, e4, e5⟩ := linIdx0 t
  have ht : t.val < 10 := lt_of_lt_of_eq t.isLt N_0
  funext j
  obtain ⟨p, q, rfl⟩ : ∃ (p : Fin 1024) (q : Fin 512), j = ix2 p q := ⟨j 0, j 1, eq_ix2 j⟩
  have hr : t.val * 1024 + p.val < 10240 := by have := p.isLt; omega
  show k0_pay1 (F := Ideal) (iblk0 V c 0 t) (iblk0 V c 1 t) (ix2 p q)
    = linArr0 X W (((cfg0.win 2).blk t).view.emb (ix2 p q))
  rw [linPay0_apply, at_eq (linArr0 X W) _ ⟨_, hr⟩ q
    (by show win0_2.index t (0 : Fin 2) * 1024 + 1 * p.val = t.val * 1024 + p.val; omega)
    (by show win0_2.index t (1 : Fin 2) * 512 + 1 * q.val = q.val; omega)]
  exact lin_entry hX hW ⟨_, hr⟩ q _ _
    (fun k => at_eq (V c main_v17) (((cfg0.win 0).blk t).view.emb (ix2 p k)) ⟨_, hr⟩ k
      (by show win0_0.index t (0 : Fin 2) * 1024 + 1 * p.val = t.val * 1024 + p.val; omega)
      (by show win0_0.index t (1 : Fin 2) * 512 + 1 * k.val = k.val; omega))
    (fun k => at_eq (V c main_v18) (((cfg0.win 1).blk t).view.emb (ix2 k q)) k q
      (by show win0_1.index t (0 : Fin 2) * 512 + 1 * k.val = k.val; omega)
      (by show win0_1.index t (1 : Fin 2) * 512 + 1 * q.val = q.val; omega))

-- The ten tiles cover the array: row `r` lies in tile `r / 1024`.
theorem linCover0 (i : S10240x512.Idx) : ∃ t : Fin cfg0.N, (cfg0.win 2).flush t = true ∧ i ∈ ((cfg0.win 2).blk t).view.set := by
  have hi0 : (i 0).val < 10240 := (i 0).isLt
  have hi1 : (i 1).val < 512 := (i 1).isLt
  have hN : grid0.N = 10 := N_0
  let t : Fin cfg0.N := ⟨(i 0).val / 1024, by show _ < grid0.N; omega⟩
  obtain ⟨-, -, -, -, e4, e5⟩ := linIdx0 t
  have et : t.val = (i 0).val / 1024 := rfl
  refine ⟨t, flush0_2 t, ?_⟩
  show i ∈ ((View.whole main_v24).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

theorem lin0_value (V : (c : Dev nD) → (b : Ref sig .tc) → Buf (Elt Ideal) ((c : Thread nD τ).loc b)) (c : Dev nD)
    (X : Fin 10240 → Fin 512 → ℝ) (W : Fin 512 → Fin 512 → ℝ)
    (hX : Cert.Gcn.IsMat (V c main_v17) X) (hW : Cert.Gcn.IsMat (V c main_v18) W) :
    Cert.Gcn.IsMat ((dat0 (F := Ideal) V c).arrAt 2 cfg0.N) (Cert.Gcn.lin X W) :=
  fun r q => congrFun ((dat0 (F := Ideal) V c).arrAt_eq_of_cover 2 (linArr0 X W)
    (fun t _ => linFlushed0_eq V c X W hX hW t) linCover0) (ix2 r q)

end Cert.KernelIdeal.Hand

end
-- ==== Proof.KI.LinVal2.lean ====
import proofs.«425200_j18691697672407_2_alg».proof.Proof.KI.Lin2
import proofs.«425200_j18691697672407_2_alg».proof.Proof.KI.ValLib

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem linPay2_apply (x : Vec Ideal S1024x1024 .bf16) (w : Vec Ideal S1024x512 .bf16) (p : Fin 1024) (q : Fin 512) :
    k2_pay1 (F := Ideal) x w (ix2 p q) = ∑ k : Fin 1024, x (ix2 p k) * w (ix2 k q) := by
  unfold k2_pay1
  rw [shapeCast_self, shapeCast_self, truncf_apply]
  simp only [matmul]
  exact matmul_plain_apply x w p q

abbrev linArr2 (X : Fin 10240 → Fin 1024 → ℝ) (W : Fin 1024 → Fin 512 → ℝ) : S10240x512.Idx → EReal :=
  fun i => ((Cert.Gcn.lin X W (i 0) (i 1) : ℝ) : EReal)

-- The tile the body leaves is the product of its two blocks.
theorem linOut2_eq {F : FTy → Type} [FloatOps F] (x0 : Vec F S1024x1024 .bf16) (x1 : Vec F S1024x512 .bf16) :
    out2_2 x0 x1 = k2_pay1 x0 x1 := by
  unfold out2_2
  rw [View.canon_unit_zero hz2]
  simp only [View.ld_unit_zero (S := S1024x1024) hz2, View.ld_unit_zero (S := S1024x512) hz2]

-- The block indices at point `t`: the left and the product tiles sit at block row `t`, the right matrix is one block.
theorem linIdx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

-- Tile `t` of the output is rows `1024 t …` of the left matrix times the whole right matrix.
theorem linFlushed2_eq (c : Dev nD) (X : Fin 10240 → Fin 1024 → ℝ) (W : Fin 1024 → Fin 512 → ℝ)
    (hX : Cert.Gcn.IsMat (V c main_v25) X) (hW : Cert.Gcn.IsMat (V c main_v19) W) (t : Fin cfg2.N) :
    (dat2 (F := Ideal) V c).flushed 2 t = ((cfg2.win 2).blk t).view.read (Elt Ideal) (linArr2 X W) := by
  show (cfg2.win 2).cut (grid2.coords t) ((dat2 (F := Ideal) V c).after 2 t) = _
  rw [after2_2, linOut2_eq]
  obtain ⟨e0, e1, e2, e3, e4, e5⟩ := linIdx2 t
  have ht : t.val < 10 := lt_of_lt_of_eq t.isLt N_2
  funext j
  obtain ⟨p, q, rfl⟩ : ∃ (p : Fin 1024) (q : Fin 512), j = ix2 p q := ⟨j 0, j 1, eq_ix2 j⟩
  have hr : t.val * 1024 + p.val < 10240 := by have := p.isLt; omega
  show k2_pay1 (F := Ideal) (iblk2 V c 0 t) (iblk2 V c 1 t) (ix2 p q)
    = linArr2 X W (((cfg2.win 2).blk t).view.emb (ix2 p q))
  rw [linPay2_apply, at_eq (linArr2 X W) _ ⟨_, hr⟩ q
    (by show win2_2.index t (0 : Fin 2) * 1024 + 1 * p.val = t.val * 1024 + p.val; omega)
    (by show win2_2.index t (1 : Fin 2) * 512 + 1 * q.val = q.val; omega)]
  exact lin_entry hX hW ⟨_, hr⟩ q _ _
    (fun k => at_eq (V c main_v25) (((cfg2.win 0).blk t).view.emb (ix2 p k)) ⟨_, hr⟩ k
      (by show win2_0.index t (0 : Fin 2) * 1024 + 1 * p.val = t.val * 1024 + p.val; omega)
      (by show win2_0.index t (1 : Fin 2) * 1024 + 1 * k.val = k.val; omega))
    (fun k => at_eq (V c main_v19) (((cfg2.win 1).blk t).view.emb (ix2 k q)) k q
      (by show win2_1.index t (0 : Fin 2) * 1024 + 1 * k.val = k.val; omega)
      (by show win2_1.index t (1 : Fin 2) * 512 + 1 * q.val = q.val; omega))

-- The ten tiles cover the array: row `r` lies in tile `r / 1024`.
theorem linCover2 (i : S10240x512.Idx) : ∃ t : Fin cfg2.N, (cfg2.win 2).flush t = true ∧ i ∈ ((cfg2.win 2).blk t).view.set := by
  have hi0 : (i 0).val < 10240 := (i 0).isLt
  have hi1 : (i 1).val < 512 := (i 1).isLt
  have hN : grid2.N = 10 := N_2
  let t : Fin cfg2.N := ⟨(i 0).val / 1024, by show _ < grid2.N; omega⟩
  obtain ⟨-, -, -, -, e4, e5⟩ := linIdx2 t
  have et : t.val = (i 0).val / 1024 := rfl
  refine ⟨t, flush2_2 t, ?_⟩
  show i ∈ ((View.whole main_v26).slice (win2_2.rect t)).set
  rw [View.set_slice_whole, Rect.mem_set_unit]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 512 ≤ (i 1).val ∧ (i 1).val < win2_2.index t (1 : Fin 2) * 512 + 512; omega

theorem lin2_value (V : (c : Dev nD) → (b : Ref sig .tc) → Buf (Elt Ideal) ((c : Thread nD τ).loc b)) (c : Dev nD)
    (X : Fin 10240 → Fin 1024 → ℝ) (W : Fin 1024 → Fin 512 → ℝ)
    (hX : Cert.Gcn.IsMat (V c main_v25) X) (hW : Cert.Gcn.IsMat (V c main_v19) W) :
    Cert.Gcn.IsMat ((dat2 (F := Ideal) V c).arrAt 2 cfg2.N) (Cert.Gcn.lin X W) :=
  fun r q => congrFun ((dat2 (F := Ideal) V c).arrAt_eq_of_cover 2 (linArr2 X W)
    (fun t _ => linFlushed2_eq V c X W hX hW t) linCover2) (ix2 r q)

end Cert.KernelIdeal.Hand

end
-- ==== Proof.KI.LinVal4.lean ====
import proofs.«425200_j18691697672407_2_alg».proof.Proof.KI.Lin4
import proofs.«425200_j18691697672407_2_alg».proof.Proof.KI.ValLib

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem linPay4_apply (x : Vec Ideal S1024x1024 .bf16) (w : Vec Ideal S1024x256 .bf16) (p : Fin 1024) (q : Fin 256) :
    k4_pay1 (F := Ideal) x w (ix2 p q) = ∑ k : Fin 1024, x (ix2 p k) * w (ix2 k q) := by
  unfold k4_pay1
  rw [shapeCast_self, shapeCast_self, truncf_apply]
  simp only [matmul]
  exact matmul_plain_apply x w p q

abbrev linArr4 (X : Fin 10240 → Fin 1024 → ℝ) (W : Fin 1024 → Fin 256 → ℝ) : S10240x256.Idx → EReal :=
  fun i => ((Cert.Gcn.lin X W (i 0) (i 1) : ℝ) : EReal)

-- The tile the body leaves is the product of its two blocks.
theorem linOut4_eq {F : FTy → Type} [FloatOps F] (x0 : Vec F S1024x1024 .bf16) (x1 : Vec F S1024x256 .bf16) :
    out4_2 x0 x1 = k4_pay1 x0 x1 := by
  unfold out4_2
  rw [View.canon_unit_zero hz2]
  simp only [View.ld_unit_zero (S := S1024x1024) hz2, View.ld_unit_zero (S := S1024x256) hz2]

-- The block indices at point `t`: the left and the product tiles sit at block row `t`, the right matrix is one block.
theorem linIdx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

variable (V : (c : Dev nD) → (b : Ref sig .tc) → Buf (Elt Ideal) ((c : Thread nD τ).loc b))

-- Tile `t` of the output is rows `1024 t …` of the left matrix times the whole right matrix.
theorem linFlushed4_eq (c : Dev nD) (X : Fin 10240 → Fin 1024 → ℝ) (W : Fin 1024 → Fin 256 → ℝ)
    (hX : Cert.Gcn.IsMat (V c main_v27) X) (hW : Cert.Gcn.IsMat (V c main_v20) W) (t : Fin cfg4.N) :
    (dat4 (F := Ideal) V c).flushed 2 t = ((cfg4.win 2).blk t).view.read (Elt Ideal) (linArr4 X W) := by
  show (cfg4.win 2).cut (grid4.coords t) ((dat4 (F := Ideal) V c).after 2 t) = _
  rw [after4_2, linOut4_eq]
  obtain ⟨e0, e1, e2, e3, e4, e5⟩ := linIdx4 t
  have ht : t.val < 10 := lt_of_lt_of_eq t.isLt N_4
  funext j
  obtain ⟨p, q, rfl⟩ : ∃ (p : Fin 1024) (q : Fin 256), j = ix2 p q := ⟨j 0, j 1, eq_ix2 j⟩
  have hr : t.val * 1024 + p.val < 10240 := by have := p.isLt; omega
  show k4_pay1 (F := Ideal) (iblk4 V c 0 t) (iblk4 V c 1 t) (ix2 p q)
    = linArr4 X W (((cfg4.win 2).blk t).view.emb (ix2 p q))
  rw [linPay4_apply, at_eq (linArr4 X W) _ ⟨_, hr⟩ q
    (by show win4_2.index t (0 : Fin 2) * 1024 + 1 * p.val = t.val * 1024 + p.val; omega)
    (by show win4_2.index t (1 : Fin 2) * 256 + 1 * q.val = q.val; omega)]
  exact lin_entry hX hW ⟨_, hr⟩ q _ _
    (fun k => at_eq (V c main_v27) (((cfg4.win 0).blk t).view.emb (ix2 p k)) ⟨_, hr⟩ k
      (by show win4_0.index t (0 : Fin 2) * 1024 + 1 * p.val = t.val * 1024 + p.val; omega)
      (by show win4_0.index t (1 : Fin 2) * 1024 + 1 * k.val = k.val; omega))
    (fun k => at_eq (V c main_v20) (((cfg4.win 1).blk t).view.emb (ix2 k q)) k q
      (by show win4_1.index t (0 : Fin 2) * 1024 + 1 * k.val = k.val; omega)
      (by show win4_1.index t (1 : Fin 2) * 256 + 1 * q.val = q.val; omega))

-- The ten tiles cover the array: row `r` lies in tile `r / 1024`.
theorem linCover4 (i : S10240x256.Idx) : ∃ t : Fin cfg4.N, (cfg4.win 2).flush t = true ∧ i ∈ ((cfg4.win 2).blk t).view.set := by
  have hi0 : (i 0).val < 10240 := (i 0).isLt
  have hi1 : (i 1).val < 256 := (i 1).isLt
  have hN : grid4.N = 10 := N_4
  let t : Fin cfg4.N := ⟨(i 0).val / 1024, by show _ < grid4.N; omega⟩
  obtain ⟨-, -, -, -, e4, e5⟩ := linIdx4 t
  have et : t.val = (i 0).val / 1024 := rfl
  refine ⟨t, flush4_2 t, ?_⟩
  show i ∈ ((View.whole main_v28).slice (win4_2.rect t)).set
  rw [View.set_slice_whole, Rect.mem_set_unit]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 256 ≤ (i 1).val ∧ (i 1).val < win4_2.index t (1 : Fin 2) * 256 + 256; omega

theorem lin4_value (V : (c : Dev nD) → (b : Ref sig .tc) → Buf (Elt Ideal) ((c : Thread nD τ).loc b)) (c : Dev nD)
    (X : Fin 10240 → Fin 1024 → ℝ) (W : Fin 1024 → Fin 256 → ℝ)
    (hX : Cert.Gcn.IsMat (V c main_v27) X) (hW : Cert.Gcn.IsMat (V c main_v20) W) :
    Cert.Gcn.IsMat ((dat4 (F := Ideal) V c).arrAt 2 cfg4.N) (Cert.Gcn.lin X W) :=
  fun r q => congrFun ((dat4 (F := Ideal) V c).arrAt_eq_of_cover 2 (linArr4 X W)
    (fun t _ => linFlushed4_eq V c X W hX hW t) linCover4) (ix2 r q)

end Cert.KernelIdeal.Hand

end
-- ==== Proof.KI.AggVal1.lean ====
import proofs.«425200_j18691697672407_2_alg».proof.Proof.KI.Agg1
import proofs.«425200_j18691697672407_2_alg».proof.Proof.KI.ValLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem step1_apply (acc : Vec Ideal S1024x512 .f32) (a : Vec Ideal S1024x1024 .bf16) (s : Vec Ideal S1024x512 .bf16)
    (p : Fin 1024) (q : Fin 512) :
    step1 (F := Ideal) acc a s (ix2 p q) = acc (ix2 p q) + ∑ j : Fin 1024, a (ix2 p j) * s (ix2 j q) := by
  unfold step1 k1_pay2
  simp only [shapeCast_self]
  rw [addf_apply]
  exact congrArg (acc (ix2 p q) + ·) (matmul_plain_apply a s p q)

theorem reset1_apply (p : Fin 1024) (q : Fin 512) : reset1 (F := Ideal) (ix2 p q) = 0 := by
  unfold reset1 k1_pay1
  simp only [shapeCast_self]
  exact Ideal.ofBits_zero_f32

-- The block indices at point `t = 10 i + k`: block `(i, k)` of the matrix, block `k` of the features, the one bias block, row tile `i` of the output.
theorem idx1_0 : ∀ t : Fin cfg1.N, win1_0.index t (0 : Fin 2) = t.val / 10 ∧ win1_0.index t (1 : Fin 2) = t.val % 10 :=
  (by decide +kernel : ∀ t : Fin grid1.N, _)
theorem idx1_1 : ∀ t : Fin cfg1.N, win1_1.index t (0 : Fin 2) = t.val % 10 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val / 10 ∧ win1_3.index t (1 : Fin 2) = 0 :=
  (by decide +kernel : ∀ t : Fin grid1.N, _)
theorem coords1_0 : ∀ t : Fin cfg1.N, ((grid1.coords t) 0).val = t.val / 10 :=
  (by decide +kernel : ∀ t : Fin grid1.N, _)

variable (V : (c : Dev nD) → (b : Ref sig .tc) → Buf (Elt Ideal) ((c : Thread nD τ).loc b))

theorem iblk1_0_apply (c : Dev nD) (A : Fin 10240 → Fin 10240 → ℝ) (hA : Cert.Gcn.IsMat (V c main_v15) A)
    (t : Fin cfg1.N) (p j : Fin 1024) :
    (iblk1 V c 0 t : Vec Ideal S1024x1024 .bf16) (ix2 p j)
      = ((ext2 A (1024 * (t.val / 10) + p.val) (1024 * (t.val % 10) + j.val) : ℝ) : EReal) := by
  obtain ⟨e0, e1⟩ := idx1_0 t
  exact isMat_at hA (((cfg1.win 0).blk t).view.emb (ix2 p j)) _ _
    (by show win1_0.index t (0 : Fin 2) * 1024 + 1 * p.val = _; rw [e0]; omega)
    (by show win1_0.index t (1 : Fin 2) * 1024 + 1 * j.val = _; rw [e1]; omega)

theorem iblk1_1_apply (c : Dev nD) (S : Fin 10240 → Fin 512 → ℝ) (hS : Cert.Gcn.IsMat (V c main_v24) S)
    (t : Fin cfg1.N) (j : Fin 1024) (q : Fin 512) :
    (iblk1 V c 1 t : Vec Ideal S1024x512 .bf16) (ix2 j q)
      = ((ext2 S (1024 * (t.val % 10) + j.val) q.val : ℝ) : EReal) := by
  obtain ⟨e0, e1⟩ := idx1_1 t
  exact isMat_at hS (((cfg1.win 1).blk t).view.emb (ix2 j q)) _ _
    (by show win1_1.index t (0 : Fin 2) * 1024 + 1 * j.val = _; rw [e0]; omega)
    (by show win1_1.index t (1 : Fin 2) * 512 + 1 * q.val = _; rw [e1]; omega)

theorem iblk1_2_apply (c : Dev nD) (b : Fin 512 → ℝ) (hb : Cert.Gcn.IsMat (V c main_v21) (fun _ k => b k))
    (t : Fin cfg1.N) (q : Fin 512) :
    (iblk1 V c 2 t : Vec Ideal S1x512 .f32) (ix2 0 q) = ((b q : ℝ) : EReal) := by
  obtain ⟨e0, e1⟩ := idx1_2 t
  exact (at_eq (V c main_v21) (((cfg1.win 2).blk t).view.emb (ix2 0 q)) 0 q
    (by show win1_2.index t (0 : Fin 2) * 1 + 1 * 0 = 0; rw [e0])
    (by show win1_2.index t (1 : Fin 2) * 512 + 1 * q.val = q.val; rw [e1]; omega)).trans (hb 0 q)

theorem acc1_apply (c : Dev nD) (A : Fin 10240 → Fin 10240 → ℝ) (S : Fin 10240 → Fin 512 → ℝ)
    (hA : Cert.Gcn.IsMat (V c main_v15) A) (hS : Cert.Gcn.IsMat (V c main_v24) S) (p : Fin 1024) (q : Fin 512) :
    ∀ (n : ℕ) (hn : n < cfg1.N),
      accAfter1 V c n hn (ix2 p q) = ((part A S (1024 * (n / 10) + p.val) q (n % 10 + 1) : ℝ) : EReal) :=
  blockacc_apply A S (accAfter1 V c) (fun n h => iblk1 V c 0 ⟨n, h⟩) (fun n h => iblk1 V c 1 ⟨n, h⟩)
    (fun n h p j => iblk1_0_apply V c A hA ⟨n, h⟩ p j) (fun n h j q => iblk1_1_apply V c S hS ⟨n, h⟩ j q)
    (fun n h hm p q => (congrFun (accAfter1_first V c ⟨n, h⟩ hm) (ix2 p q)).trans (by
      rw [step1_apply, reset1_apply, zero_add]))
    (fun n h hm p q => (congrFun (accAfter1_next V c ⟨n + 1, h⟩ hm) (ix2 p q)).trans (step1_apply _ _ _ p q)) p q

def G1 (A : Fin 10240 → Fin 10240 → ℝ) (S : Fin 10240 → Fin 512 → ℝ) (b : Fin 512 → ℝ) : S10240x1024.Idx → EReal :=
  fun i => ((Cert.Gcn.cat 1024 (by decide : 0 < 512) (Cert.Gcn.mask 10000 (Cert.Gcn.dagg A S b)) (i 0) (i 1) : ℝ) : EReal)

-- The last of a tile's ten points holds the whole row sums; it adds the bias, zeroes the rows from 10000 on, and leaves the positive parts in the left half of the tile and the values themselves in the right half.
theorem flushed1_3_eq (c : Dev nD) (A : Fin 10240 → Fin 10240 → ℝ) (S : Fin 10240 → Fin 512 → ℝ) (b : Fin 512 → ℝ)
    (hA : Cert.Gcn.IsMat (V c main_v15) A) (hS : Cert.Gcn.IsMat (V c main_v24) S)
    (hb : Cert.Gcn.IsMat (V c main_v21) (fun _ k => b k))
    (t : Fin cfg1.N) (hf : (cfg1.win 3).flush t = true) :
    (dat1 (F := Ideal) V c).flushed 3 t = ((cfg1.win 3).blk t).view.read (Elt Ideal) (G1 A S b) := by
  have h9 : t.val % 10 = 9 := (flush1_3 t).mp hf
  have ht : t.val < 100 := lt_of_lt_of_eq t.isLt N_1
  obtain ⟨e0, e1⟩ := idx1_3 t
  show (cfg1.win 3).cut (grid1.coords t) ((dat1 (F := Ideal) V c).after 3 t) = _
  rw [after1_3]
  funext y
  obtain ⟨p, cc, rfl⟩ : ∃ (p : Fin 1024) (cc : Fin 1024), y = ix2 p cc := ⟨y 0, y 1, eq_ix2 y⟩
  have hr : 1024 * (t.val / 10) + p.val < 10240 := by have := p.isLt; omega
  rw [View.read_apply]
  show out1_3 (F := Ideal) (grid1.coords t) (accAfter1 V c t.val t.isLt) (iblk1 V c 2 t) (ix2 p cc)
    = G1 A S b (((cfg1.win 3).blk t).view.emb (ix2 p cc))
  rw [at_eq (G1 A S b) _ ⟨_, hr⟩ cc
    (by show win1_3.index t (0 : Fin 2) * 1024 + 1 * p.val = 1024 * (t.val / 10) + p.val; rw [e0]; omega)
    (by show win1_3.index t (1 : Fin 2) * 1024 + 1 * cc.val = cc.val; rw [e1]; omega)]
  exact cattile_apply (k1_pay3 (F := Ideal) (grid1.coords t) (accAfter1 V c t.val t.isLt) (iblk1 V c 2 t)) _ _
    (fun p q => by
      show max (k1_pay3 (F := Ideal) _ _ _ (ix2 p q)) (Ideal.ofBits .f32 0x00000000#32) = _
      rw [Ideal.ofBits_zero_f32])
    (fun p q => truncf_apply (k1_pay3 (F := Ideal) _ _ _) bitsLt_bf16_f32 (ix2 p q))
    _ ⟨_, hr⟩ p (fun q => by
      unfold k1_pay3
      simp only [shapeCast_self]
      refine (maskbias_apply _ (grid1.coords t 0).isLt _ _ _ _ p q).trans ?_
      rw [coords1_0 t]
      exact maskdagg_apply A S b ⟨_, hr⟩ q _ _ (by rw [acc1_apply V c A S hA hS p q t.val t.isLt, h9])
        (iblk1_2_apply V c b hb t q)) cc

-- Row `r` of the output lies in tile `r / 1024`, which is finished at point `10 (r / 1024) + 9`.
theorem arrCover1_3 (i : S10240x1024.Idx) :
    ∃ t : Fin cfg1.N, (cfg1.win 3).flush t = true ∧ i ∈ ((cfg1.win 3).blk t).view.set := by
  have hi0 : (i 0).val < 10240 := (i 0).isLt
  have hi1 : (i 1).val < 1024 := (i 1).isLt
  have hN : grid1.N = 100 := N_1
  let t : Fin cfg1.N := ⟨10 * ((i 0).val / 1024) + 9, by show _ < grid1.N; omega⟩
  have et : t.val = 10 * ((i 0).val / 1024) + 9 := rfl
  obtain ⟨e0, e1⟩ := idx1_3 t
  refine ⟨t, (flush1_3 t).mpr (by omega), ?_⟩
  show i ∈ ((View.whole main_v25).slice (win1_3.rect t)).set
  rw [View.set_slice_whole, Rect.mem_set_unit]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

theorem agg1_value (V : (c : Dev nD) → (b : Ref sig .tc) → Buf (Elt Ideal) ((c : Thread nD τ).loc b)) (c : Dev nD)
    (A : Fin 10240 → Fin 10240 → ℝ) (S : Fin 10240 → Fin 512 → ℝ) (b : Fin 512 → ℝ)
    (hA : Cert.Gcn.IsMat (V c main_v15) A) (hS : Cert.Gcn.IsMat (V c main_v24) S) (hb : Cert.Gcn.IsMat (V c main_v21) (fun _ k => b k)) :
    Cert.Gcn.IsMat ((dat1 (F := Ideal) V c).arrAt 3 cfg1.N) (Cert.Gcn.cat 1024 (by decide : 0 < 512) (Cert.Gcn.mask 10000 (Cert.Gcn.dagg A S b))) :=
  fun r cc => congrFun ((dat1 (F := Ideal) V c).arrAt_eq_of_cover 3 (G1 A S b)
    (flushed1_3_eq V c A S b hA hS hb) arrCover1_3) (ix2 r cc)

end Cert.KernelIdeal.Hand

end
-- ==== Proof.KI.AggVal3.lean ====
import proofs.«425200_j18691697672407_2_alg».proof.Proof.KI.Agg3
import proofs.«425200_j18691697672407_2_alg».proof.Proof.KI.ValLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem step3_apply (acc : Vec Ideal S1024x512 .f32) (a : Vec Ideal S1024x1024 .bf16) (s : Vec Ideal S1024x512 .bf16)
    (p : Fin 1024) (q : Fin 512) :
    step3 (F := Ideal) acc a s (ix2 p q) = acc (ix2 p q) + ∑ j : Fin 1024, a (ix2 p j) * s (ix2 j q) := by
  unfold step3 k3_pay2
  simp only [shapeCast_self]
  rw [addf_apply]
  exact congrArg (acc (ix2 p q) + ·) (matmul_plain_apply a s p q)

theorem reset3_apply (p : Fin 1024) (q : Fin 512) : reset3 (F := Ideal) (ix2 p q) = 0 := by
  unfold reset3 k3_pay1
  simp only [shapeCast_self]
  exact Ideal.ofBits_zero_f32

-- The block indices at point `t = 10 i + k`: block `(i, k)` of the matrix, block `k` of the features, the one bias block, row tile `i` of the output.
theorem idx3_0 : ∀ t : Fin cfg3.N, win3_0.index t (0 : Fin 2) = t.val / 10 ∧ win3_0.index t (1 : Fin 2) = t.val % 10 :=
  (by decide +kernel : ∀ t : Fin grid3.N, _)
theorem idx3_1 : ∀ t : Fin cfg3.N, win3_1.index t (0 : Fin 2) = t.val % 10 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = t.val / 10 ∧ win3_3.index t (1 : Fin 2) = 0 :=
  (by decide +kernel : ∀ t : Fin grid3.N, _)
theorem coords3_0 : ∀ t : Fin cfg3.N, ((grid3.coords t) 0).val = t.val / 10 :=
  (by decide +kernel : ∀ t : Fin grid3.N, _)

variable (V : (c : Dev nD) → (b : Ref sig .tc) → Buf (Elt Ideal) ((c : Thread nD τ).loc b))

theorem iblk3_0_apply (c : Dev nD) (A : Fin 10240 → Fin 10240 → ℝ) (hA : Cert.Gcn.IsMat (V c main_v15) A)
    (t : Fin cfg3.N) (p j : Fin 1024) :
    (iblk3 V c 0 t : Vec Ideal S1024x1024 .bf16) (ix2 p j)
      = ((ext2 A (1024 * (t.val / 10) + p.val) (1024 * (t.val % 10) + j.val) : ℝ) : EReal) := by
  obtain ⟨e0, e1⟩ := idx3_0 t
  exact isMat_at hA (((cfg3.win 0).blk t).view.emb (ix2 p j)) _ _
    (by show win3_0.index t (0 : Fin 2) * 1024 + 1 * p.val = _; rw [e0]; omega)
    (by show win3_0.index t (1 : Fin 2) * 1024 + 1 * j.val = _; rw [e1]; omega)

theorem iblk3_1_apply (c : Dev nD) (S : Fin 10240 → Fin 512 → ℝ) (hS : Cert.Gcn.IsMat (V c main_v26) S)
    (t : Fin cfg3.N) (j : Fin 1024) (q : Fin 512) :
    (iblk3 V c 1 t : Vec Ideal S1024x512 .bf16) (ix2 j q)
      = ((ext2 S (1024 * (t.val % 10) + j.val) q.val : ℝ) : EReal) := by
  obtain ⟨e0, e1⟩ := idx3_1 t
  exact isMat_at hS (((cfg3.win 1).blk t).view.emb (ix2 j q)) _ _
    (by show win3_1.index t (0 : Fin 2) * 1024 + 1 * j.val = _; rw [e0]; omega)
    (by show win3_1.index t (1 : Fin 2) * 512 + 1 * q.val = _; rw [e1]; omega)

theorem iblk3_2_apply (c : Dev nD) (b : Fin 512 → ℝ) (hb : Cert.Gcn.IsMat (V c main_v22) (fun _ k => b k))
    (t : Fin cfg3.N) (q : Fin 512) :
    (iblk3 V c 2 t : Vec Ideal S1x512 .f32) (ix2 0 q) = ((b q : ℝ) : EReal) := by
  obtain ⟨e0, e1⟩ := idx3_2 t
  exact (at_eq (V c main_v22) (((cfg3.win 2).blk t).view.emb (ix2 0 q)) 0 q
    (by show win3_2.index t (0 : Fin 2) * 1 + 1 * 0 = 0; rw [e0])
    (by show win3_2.index t (1 : Fin 2) * 512 + 1 * q.val = q.val; rw [e1]; omega)).trans (hb 0 q)

theorem acc3_apply (c : Dev nD) (A : Fin 10240 → Fin 10240 → ℝ) (S : Fin 10240 → Fin 512 → ℝ)
    (hA : Cert.Gcn.IsMat (V c main_v15) A) (hS : Cert.Gcn.IsMat (V c main_v26) S) (p : Fin 1024) (q : Fin 512) :
    ∀ (n : ℕ) (hn : n < cfg3.N),
      accAfter3 V c n hn (ix2 p q) = ((part A S (1024 * (n / 10) + p.val) q (n % 10 + 1) : ℝ) : EReal) :=
  blockacc_apply A S (accAfter3 V c) (fun n h => iblk3 V c 0 ⟨n, h⟩) (fun n h => iblk3 V c 1 ⟨n, h⟩)
    (fun n h p j => iblk3_0_apply V c A hA ⟨n, h⟩ p j) (fun n h j q => iblk3_1_apply V c S hS ⟨n, h⟩ j q)
    (fun n h hm p q => (congrFun (accAfter3_first V c ⟨n, h⟩ hm) (ix2 p q)).trans (by
      rw [step3_apply, reset3_apply, zero_add]))
    (fun n h hm p q => (congrFun (accAfter3_next V c ⟨n + 1, h⟩ hm) (ix2 p q)).trans (step3_apply _ _ _ p q)) p q

def G3 (A : Fin 10240 → Fin 10240 → ℝ) (S : Fin 10240 → Fin 512 → ℝ) (b : Fin 512 → ℝ) : S10240x1024.Idx → EReal :=
  fun i => ((Cert.Gcn.cat 1024 (by decide : 0 < 512) (Cert.Gcn.mask 10000 (Cert.Gcn.dagg A S b)) (i 0) (i 1) : ℝ) : EReal)

-- The last of a tile's ten points holds the whole row sums; it adds the bias, zeroes the rows from 10000 on, and leaves the positive parts in the left half of the tile and the values themselves in the right half.
theorem flushed3_3_eq (c : Dev nD) (A : Fin 10240 → Fin 10240 → ℝ) (S : Fin 10240 → Fin 512 → ℝ) (b : Fin 512 → ℝ)
    (hA : Cert.Gcn.IsMat (V c main_v15) A) (hS : Cert.Gcn.IsMat (V c main_v26) S)
    (hb : Cert.Gcn.IsMat (V c main_v22) (fun _ k => b k))
    (t : Fin cfg3.N) (hf : (cfg3.win 3).flush t = true) :
    (dat3 (F := Ideal) V c).flushed 3 t = ((cfg3.win 3).blk t).view.read (Elt Ideal) (G3 A S b) := by
  have h9 : t.val % 10 = 9 := (flush3_3 t).mp hf
  have ht : t.val < 100 := lt_of_lt_of_eq t.isLt N_3
  obtain ⟨e0, e1⟩ := idx3_3 t
  show (cfg3.win 3).cut (grid3.coords t) ((dat3 (F := Ideal) V c).after 3 t) = _
  rw [after3_3]
  funext y
  obtain ⟨p, cc, rfl⟩ : ∃ (p : Fin 1024) (cc : Fin 1024), y = ix2 p cc := ⟨y 0, y 1, eq_ix2 y⟩
  have hr : 1024 * (t.val / 10) + p.val < 10240 := by have := p.isLt; omega
  rw [View.read_apply]
  show out3_3 (F := Ideal) (grid3.coords t) (accAfter3 V c t.val t.isLt) (iblk3 V c 2 t) (ix2 p cc)
    = G3 A S b (((cfg3.win 3).blk t).view.emb (ix2 p cc))
  rw [at_eq (G3 A S b) _ ⟨_, hr⟩ cc
    (by show win3_3.index t (0 : Fin 2) * 1024 + 1 * p.val = 1024 * (t.val / 10) + p.val; rw [e0]; omega)
    (by show win3_3.index t (1 : Fin 2) * 1024 + 1 * cc.val = cc.val; rw [e1]; omega)]
  exact cattile_apply (k3_pay3 (F := Ideal) (grid3.coords t) (accAfter3 V c t.val t.isLt) (iblk3 V c 2 t)) _ _
    (fun p q => by
      show max (k3_pay3 (F := Ideal) _ _ _ (ix2 p q)) (Ideal.ofBits .f32 0x00000000#32) = _
      rw [Ideal.ofBits_zero_f32])
    (fun p q => truncf_apply (k3_pay3 (F := Ideal) _ _ _) bitsLt_bf16_f32 (ix2 p q))
    _ ⟨_, hr⟩ p (fun q => by
      unfold k3_pay3
      simp only [shapeCast_self]
      refine (maskbias_apply _ (grid3.coords t 0).isLt _ _ _ _ p q).trans ?_
      rw [coords3_0 t]
      exact maskdagg_apply A S b ⟨_, hr⟩ q _ _ (by rw [acc3_apply V c A S hA hS p q t.val t.isLt, h9])
        (iblk3_2_apply V c b hb t q)) cc

-- Row `r` of the output lies in tile `r / 1024`, which is finished at point `10 (r / 1024) + 9`.
theorem arrCover3_3 (i : S10240x1024.Idx) :
    ∃ t : Fin cfg3.N, (cfg3.win 3).flush t = true ∧ i ∈ ((cfg3.win 3).blk t).view.set := by
  have hi0 : (i 0).val < 10240 := (i 0).isLt
  have hi1 : (i 1).val < 1024 := (i 1).isLt
  have hN : grid3.N = 100 := N_3
  let t : Fin cfg3.N := ⟨10 * ((i 0).val / 1024) + 9, by show _ < grid3.N; omega⟩
  have et : t.val = 10 * ((i 0).val / 1024) + 9 := rfl
  obtain ⟨e0, e1⟩ := idx3_3 t
  refine ⟨t, (flush3_3 t).mpr (by omega), ?_⟩
  show i ∈ ((View.whole main_v27).slice (win3_3.rect t)).set
  rw [View.set_slice_whole, Rect.mem_set_unit]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1024 ≤ (i 1).val ∧ (i 1).val < win3_3.index t (1 : Fin 2) * 1024 + 1024; omega

theorem agg3_value (V : (c : Dev nD) → (b : Ref sig .tc) → Buf (Elt Ideal) ((c : Thread nD τ).loc b)) (c : Dev nD)
    (A : Fin 10240 → Fin 10240 → ℝ) (S : Fin 10240 → Fin 512 → ℝ) (b : Fin 512 → ℝ)
    (hA : Cert.Gcn.IsMat (V c main_v15) A) (hS : Cert.Gcn.IsMat (V c main_v26) S) (hb : Cert.Gcn.IsMat (V c main_v22) (fun _ k => b k)) :
    Cert.Gcn.IsMat ((dat3 (F := Ideal) V c).arrAt 3 cfg3.N) (Cert.Gcn.cat 1024 (by decide : 0 < 512) (Cert.Gcn.mask 10000 (Cert.Gcn.dagg A S b))) :=
  fun r cc => congrFun ((dat3 (F := Ideal) V c).arrAt_eq_of_cover 3 (G3 A S b)
    (flushed3_3_eq V c A S b hA hS hb) arrCover3_3) (ix2 r cc)

end Cert.KernelIdeal.Hand

end
-- ==== Proof.KI.AggVal5.lean ====
import proofs.«425200_j18691697672407_2_alg».proof.Proof.KI.Agg5
import proofs.«425200_j18691697672407_2_alg».proof.Proof.KI.ValLib

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem step5_apply (acc : Vec Ideal S1024x256 .f32) (a : Vec Ideal S1024x1024 .bf16) (s : Vec Ideal S1024x256 .bf16)
    (p : Fin 1024) (q : Fin 256) :
    step5 (F := Ideal) acc a s (ix2 p q) = acc (ix2 p q) + ∑ j : Fin 1024, a (ix2 p j) * s (ix2 j q) := by
  unfold step5 k5_pay2
  simp only [shapeCast_self]
  rw [addf_apply]
  exact congrArg (acc (ix2 p q) + ·) (matmul_plain_apply a s p q)

theorem reset5_apply (p : Fin 1024) (q : Fin 256) : reset5 (F := Ideal) (ix2 p q) = 0 := by
  unfold reset5 k5_pay1
  simp only [shapeCast_self]
  exact Ideal.ofBits_zero_f32

-- The block indices at point `t = 10 i + k`: block `(i, k)` of the matrix, block `k` of the features, the one bias block, row tile `i` of the output.
theorem idx5_0 : ∀ t : Fin cfg5.N, win5_0.index t (0 : Fin 2) = t.val / 10 ∧ win5_0.index t (1 : Fin 2) = t.val % 10 :=
  (by decide +kernel : ∀ t : Fin grid5.N, _)
theorem idx5_1 : ∀ t : Fin cfg5.N, win5_1.index t (0 : Fin 2) = t.val % 10 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = t.val / 10 ∧ win5_3.index t (1 : Fin 2) = 0 :=
  (by decide +kernel : ∀ t : Fin grid5.N, _)
theorem coords5_0 : ∀ t : Fin cfg5.N, ((grid5.coords t) 0).val = t.val / 10 :=
  (by decide +kernel : ∀ t : Fin grid5.N, _)

variable (V : (c : Dev nD) → (b : Ref sig .tc) → Buf (Elt Ideal) ((c : Thread nD τ).loc b))

theorem iblk5_0_apply (c : Dev nD) (A : Fin 10240 → Fin 10240 → ℝ) (hA : Cert.Gcn.IsMat (V c main_v15) A)
    (t : Fin cfg5.N) (p j : Fin 1024) :
    (iblk5 V c 0 t : Vec Ideal S1024x1024 .bf16) (ix2 p j)
      = ((ext2 A (1024 * (t.val / 10) + p.val) (1024 * (t.val % 10) + j.val) : ℝ) : EReal) := by
  obtain ⟨e0, e1⟩ := idx5_0 t
  exact isMat_at hA (((cfg5.win 0).blk t).view.emb (ix2 p j)) _ _
    (by show win5_0.index t (0 : Fin 2) * 1024 + 1 * p.val = _; rw [e0]; omega)
    (by show win5_0.index t (1 : Fin 2) * 1024 + 1 * j.val = _; rw [e1]; omega)

theorem iblk5_1_apply (c : Dev nD) (S : Fin 10240 → Fin 256 → ℝ) (hS : Cert.Gcn.IsMat (V c main_v28) S)
    (t : Fin cfg5.N) (j : Fin 1024) (q : Fin 256) :
    (iblk5 V c 1 t : Vec Ideal S1024x256 .bf16) (ix2 j q)
      = ((ext2 S (1024 * (t.val % 10) + j.val) q.val : ℝ) : EReal) := by
  obtain ⟨e0, e1⟩ := idx5_1 t
  exact isMat_at hS (((cfg5.win 1).blk t).view.emb (ix2 j q)) _ _
    (by show win5_1.index t (0 : Fin 2) * 1024 + 1 * j.val = _; rw [e0]; omega)
    (by show win5_1.index t (1 : Fin 2) * 256 + 1 * q.val = _; rw [e1]; omega)

theorem iblk5_2_apply (c : Dev nD) (b : Fin 256 → ℝ) (hb : Cert.Gcn.IsMat (V c main_v23) (fun _ k => b k))
    (t : Fin cfg5.N) (q : Fin 256) :
    (iblk5 V c 2 t : Vec Ideal S1x256 .f32) (ix2 0 q) = ((b q : ℝ) : EReal) := by
  obtain ⟨e0, e1⟩ := idx5_2 t
  exact (at_eq (V c main_v23) (((cfg5.win 2).blk t).view.emb (ix2 0 q)) 0 q
    (by show win5_2.index t (0 : Fin 2) * 1 + 1 * 0 = 0; rw [e0])
    (by show win5_2.index t (1 : Fin 2) * 256 + 1 * q.val = q.val; rw [e1]; omega)).trans (hb 0 q)

theorem acc5_apply (c : Dev nD) (A : Fin 10240 → Fin 10240 → ℝ) (S : Fin 10240 → Fin 256 → ℝ)
    (hA : Cert.Gcn.IsMat (V c main_v15) A) (hS : Cert.Gcn.IsMat (V c main_v28) S) (p : Fin 1024) (q : Fin 256) :
    ∀ (n : ℕ) (hn : n < cfg5.N),
      accAfter5 V c n hn (ix2 p q) = ((part A S (1024 * (n / 10) + p.val) q (n % 10 + 1) : ℝ) : EReal) :=
  blockacc_apply A S (accAfter5 V c) (fun n h => iblk5 V c 0 ⟨n, h⟩) (fun n h => iblk5 V c 1 ⟨n, h⟩)
    (fun n h p j => iblk5_0_apply V c A hA ⟨n, h⟩ p j) (fun n h j q => iblk5_1_apply V c S hS ⟨n, h⟩ j q)
    (fun n h hm p q => (congrFun (accAfter5_first V c ⟨n, h⟩ hm) (ix2 p q)).trans (by
      rw [step5_apply, reset5_apply, zero_add]))
    (fun n h hm p q => (congrFun (accAfter5_next V c ⟨n + 1, h⟩ hm) (ix2 p q)).trans (step5_apply _ _ _ p q)) p q

def G5 (A : Fin 10240 → Fin 10240 → ℝ) (S : Fin 10240 → Fin 256 → ℝ) (b : Fin 256 → ℝ) : S10240x256.Idx → EReal :=
  fun i => ((Cert.Gcn.mask 10000 (Cert.Gcn.dagg A S b) (i 0) (i 1) : ℝ) : EReal)

-- The last of a tile's ten points holds the whole row sums; it adds the bias and zeroes the rows from 10000 on.
theorem flushed5_3_eq (c : Dev nD) (A : Fin 10240 → Fin 10240 → ℝ) (S : Fin 10240 → Fin 256 → ℝ) (b : Fin 256 → ℝ)
    (hA : Cert.Gcn.IsMat (V c main_v15) A) (hS : Cert.Gcn.IsMat (V c main_v28) S)
    (hb : Cert.Gcn.IsMat (V c main_v23) (fun _ k => b k))
    (t : Fin cfg5.N) (hf : (cfg5.win 3).flush t = true) :
    (dat5 (F := Ideal) V c).flushed 3 t = ((cfg5.win 3).blk t).view.read (Elt Ideal) (G5 A S b) := by
  have h9 : t.val % 10 = 9 := (flush5_3 t).mp hf
  have ht : t.val < 100 := lt_of_lt_of_eq t.isLt N_5
  obtain ⟨e0, e1⟩ := idx5_3 t
  show (cfg5.win 3).cut (grid5.coords t) ((dat5 (F := Ideal) V c).after 3 t) = _
  rw [after5_3]
  unfold out5_3
  rw [View.canon_unit_zero hz2]
  funext y
  obtain ⟨p, q, rfl⟩ : ∃ (p : Fin 1024) (q : Fin 256), y = ix2 p q := ⟨y 0, y 1, eq_ix2 y⟩
  have hr : 1024 * (t.val / 10) + p.val < 10240 := by have := p.isLt; omega
  show k5_pay3 (F := Ideal) (grid5.coords t) (accAfter5 V c t.val t.isLt) (iblk5 V c 2 t) (ix2 p q)
    = G5 A S b (((cfg5.win 3).blk t).view.emb (ix2 p q))
  rw [at_eq (G5 A S b) _ ⟨_, hr⟩ q
    (by show win5_3.index t (0 : Fin 2) * 1024 + 1 * p.val = 1024 * (t.val / 10) + p.val; rw [e0]; omega)
    (by show win5_3.index t (1 : Fin 2) * 256 + 1 * q.val = q.val; rw [e1]; omega)]
  unfold k5_pay3
  simp only [shapeCast_self]
  refine (maskbias_apply _ (grid5.coords t 0).isLt _ _ _ _ p q).trans ?_
  rw [coords5_0 t]
  exact maskdagg_apply A S b ⟨_, hr⟩ q _ _ (by rw [acc5_apply V c A S hA hS p q t.val t.isLt, h9])
    (iblk5_2_apply V c b hb t q)

-- Row `r` of the output lies in tile `r / 1024`, which is finished at point `10 (r / 1024) + 9`.
theorem arrCover5_3 (i : S10240x256.Idx) :
    ∃ t : Fin cfg5.N, (cfg5.win 3).flush t = true ∧ i ∈ ((cfg5.win 3).blk t).view.set := by
  have hi0 : (i 0).val < 10240 := (i 0).isLt
  have hi1 : (i 1).val < 256 := (i 1).isLt
  have hN : grid5.N = 100 := N_5
  let t : Fin cfg5.N := ⟨10 * ((i 0).val / 1024) + 9, by show _ < grid5.N; omega⟩
  have et : t.val = 10 * ((i 0).val / 1024) + 9 := rfl
  obtain ⟨e0, e1⟩ := idx5_3 t
  refine ⟨t, (flush5_3 t).mpr (by omega), ?_⟩
  show i ∈ ((View.whole main_v29).slice (win5_3.rect t)).set
  rw [View.set_slice_whole, Rect.mem_set_unit]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 256 ≤ (i 1).val ∧ (i 1).val < win5_3.index t (1 : Fin 2) * 256 + 256; omega

theorem agg5_value (V : (c : Dev nD) → (b : Ref sig .tc) → Buf (Elt Ideal) ((c : Thread nD τ).loc b)) (c : Dev nD)
    (A : Fin 10240 → Fin 10240 → ℝ) (S : Fin 10240 → Fin 256 → ℝ) (b : Fin 256 → ℝ)
    (hA : Cert.Gcn.IsMat (V c main_v15) A) (hS : Cert.Gcn.IsMat (V c main_v28) S) (hb : Cert.Gcn.IsMat (V c main_v23) (fun _ k => b k)) :
    Cert.Gcn.IsMat ((dat5 (F := Ideal) V c).arrAt 3 cfg5.N) (Cert.Gcn.mask 10000 (Cert.Gcn.dagg A S b)) :=
  fun r q => congrFun ((dat5 (F := Ideal) V c).arrAt_eq_of_cover 3 (G5 A S b)
    (flushed5_3_eq V c A S b hA hS hb) arrCover5_3) (ix2 r q)

end Cert.KernelIdeal.Hand

end
-- ==== Proof.KI.KerValue.lean ====
import proofs.«425200_j18691697672407_2_alg».proof.Proof.Gen.KernelIdeal.Regions
import proofs.«425200_j18691697672407_2_alg».proof.Proof.Agree
import proofs.«425200_j18691697672407_2_alg».proof.Proof.Dense
import proofs.«425200_j18691697672407_2_alg».proof.Proof.KI.Run
import proofs.«425200_j18691697672407_2_alg».proof.Proof.KI.HostVal
import proofs.«425200_j18691697672407_2_alg».proof.Proof.KI.LinVal0
import proofs.«425200_j18691697672407_2_alg».proof.Proof.KI.LinVal2
import proofs.«425200_j18691697672407_2_alg».proof.Proof.KI.LinVal4
import proofs.«425200_j18691697672407_2_alg».proof.Proof.KI.AggVal1
import proofs.«425200_j18691697672407_2_alg».proof.Proof.KI.AggVal3
import proofs.«425200_j18691697672407_2_alg».proof.Proof.KI.AggVal5

noncomputable section

namespace Cert.KernelIdeal.KerValue

open Cert.KernelIdeal Cert.KernelIdeal.Gen Cert.Gcn
open Idealize.ShloMosaic Idealize.ShloMosaic.TcCoe
open Idealize.SL Idealize.SL.Sem

-- Each region's result holds the real matrix its layer computes from the matrices held before it; chained, the last holds the network's value.
theorem out_of_chain (a : Args) (W3 W4 W5 W6 W7 W8 W9 W10 : Valuation τ sig (Elt Ideal))
    (h4 : ∀ r : Ref sig .tc, r ∉ ([main_v24] : List (Ref sig .tc)) → W4 r = W3 r)
    (h5 : ∀ r : Ref sig .tc, r ∉ ([main_v25] : List (Ref sig .tc)) → W5 r = W4 r)
    (h6 : ∀ r : Ref sig .tc, r ∉ ([main_v26] : List (Ref sig .tc)) → W6 r = W5 r)
    (h7 : ∀ r : Ref sig .tc, r ∉ ([main_v27] : List (Ref sig .tc)) → W7 r = W6 r)
    (h8 : ∀ r : Ref sig .tc, r ∉ ([main_v28] : List (Ref sig .tc)) → W8 r = W7 r)
    (hA : IsMat (W3 main_v15) a.kA) (hx : IsMat (W3 main_v17) (padR 10240 a.x))
    (hW0 : IsMat (W3 main_v18) a.W0) (hW1 : IsMat (W3 main_v19) a.W1) (hW2 : IsMat (W3 main_v20) a.W2)
    (hb0 : IsMat (W3 main_v21) (fun _ k => a.b0 k)) (hb1 : IsMat (W3 main_v22) (fun _ k => a.b1 k))
    (hb2 : IsMat (W3 main_v23) (fun _ k => a.b2 k))
    (r0 : ∀ (X : Fin 10240 → Fin 512 → ℝ) (W : Fin 512 → Fin 512 → ℝ),
      IsMat (W3 main_v17) X → IsMat (W3 main_v18) W → IsMat (W4 main_v24) (lin X W))
    (r1 : ∀ (A : Fin 10240 → Fin 10240 → ℝ) (S : Fin 10240 → Fin 512 → ℝ) (b : Fin 512 → ℝ),
      IsMat (W4 main_v15) A → IsMat (W4 main_v24) S → IsMat (W4 main_v21) (fun _ k => b k) →
      IsMat (W5 main_v25) (cat 1024 (by decide : 0 < 512) (mask 10000 (dagg A S b))))
    (r2 : ∀ (X : Fin 10240 → Fin 1024 → ℝ) (W : Fin 1024 → Fin 512 → ℝ),
      IsMat (W5 main_v25) X → IsMat (W5 main_v19) W → IsMat (W6 main_v26) (lin X W))
    (r3 : ∀ (A : Fin 10240 → Fin 10240 → ℝ) (S : Fin 10240 → Fin 512 → ℝ) (b : Fin 512 → ℝ),
      IsMat (W6 main_v15) A → IsMat (W6 main_v26) S → IsMat (W6 main_v22) (fun _ k => b k) →
      IsMat (W7 main_v27) (cat 1024 (by decide : 0 < 512) (mask 10000 (dagg A S b))))
    (r4 : ∀ (X : Fin 10240 → Fin 1024 → ℝ) (W : Fin 1024 → Fin 256 → ℝ),
      IsMat (W7 main_v27) X → IsMat (W7 main_v20) W → IsMat (W8 main_v28) (lin X W))
    (r5 : ∀ (A : Fin 10240 → Fin 10240 → ℝ) (S : Fin 10240 → Fin 256 → ℝ) (b : Fin 256 → ℝ),
      IsMat (W8 main_v15) A → IsMat (W8 main_v28) S → IsMat (W8 main_v23) (fun _ k => b k) →
      IsMat (W9 main_v29) (mask 10000 (dagg A S b)))
    (hout : ∀ O : Fin 10240 → Fin 256 → ℝ, IsMat (W9 main_v29) O →
      IsMat (W10 main_v30) (fun r c => O ⟨r.val, by have := r.isLt; omega⟩ c)) :
    W10 main_v30 = outArr a := by

  have s0 : IsMat (W4 main_v24) a.ks0 := r0 _ _ hx hW0
  have A4 : IsMat (W4 main_v15) a.kA := by rw [h4 main_v15 (by decide)]; exact hA
  have b4 : IsMat (W4 main_v21) (fun _ k => a.b0 k) := by rw [h4 main_v21 (by decide)]; exact hb0
  have x1 : IsMat (W5 main_v25) a.kx1 := r1 _ _ _ A4 s0 b4

  have w5 : IsMat (W5 main_v19) a.W1 := by
    rw [h5 main_v19 (by decide), h4 main_v19 (by decide)]; exact hW1
  have s1 : IsMat (W6 main_v26) a.ks1 := r2 _ _ x1 w5
  have A6 : IsMat (W6 main_v15) a.kA := by
    rw [h6 main_v15 (by decide), h5 main_v15 (by decide), h4 main_v15 (by decide)]; exact hA
  have b6 : IsMat (W6 main_v22) (fun _ k => a.b1 k) := by
    rw [h6 main_v22 (by decide), h5 main_v22 (by decide), h4 main_v22 (by decide)]; exact hb1
  have x2 : IsMat (W7 main_v27) a.kx2 := r3 _ _ _ A6 s1 b6

  have w7 : IsMat (W7 main_v20) a.W2 := by
    rw [h7 main_v20 (by decide), h6 main_v20 (by decide), h5 main_v20 (by decide), h4 main_v20 (by decide)]; exact hW2
  have s2 : IsMat (W8 main_v28) a.ks2 := r4 _ _ x2 w7
  have A8 : IsMat (W8 main_v15) a.kA := by
    rw [h8 main_v15 (by decide), h7 main_v15 (by decide), h6 main_v15 (by decide), h5 main_v15 (by decide),
      h4 main_v15 (by decide)]; exact hA
  have b8 : IsMat (W8 main_v23) (fun _ k => a.b2 k) := by
    rw [h8 main_v23 (by decide), h7 main_v23 (by decide), h6 main_v23 (by decide), h5 main_v23 (by decide),
      h4 main_v23 (by decide)]; exact hb2
  have o : IsMat (W9 main_v29) a.ko := r5 _ _ _ A8 s2 b8

  have ho : IsMat (W10 main_v30) a.kout := hout _ o
  rw [ho.eq, a.kout_eq_out]
  rfl

open Cert.KernelIdeal.Hand Cert.KernelIdeal.HostVal

-- The run's final contents, read at the result buffer and at the ten arguments.
theorem run_out (a : Dev nD → Cert.Gcn.Args) (m : (ℓ : Loc nD τ sig) → Buf (Elt Ideal) ℓ) (ρ : Dev nD → PrngReg)
    (h : ∀ c : Dev nD, Cert.Gcn.Holds (a c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :
    θ_run (defs (F := Ideal)) (onTc (τ := τ) (main (F := Ideal))) ⟨m, fun _ => 0, ρ⟩ (fun r => ∀ c : Dev nD,
      r.2.mem ((c.tc : Thread nD τ).loc main_v30) = Cert.Gcn.outArr (a c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r hr c =>
    have mem : ∀ b : Ref sig .tc, ¬ (Proc.devRef .tc b : DevRef τ sig).isScoped →
        r.2.mem ((c.tc : Thread nD τ).loc b) = W10 m c b := fun b hb =>
      hr c (Proc.devRef .tc b) (Finset.mem_filter.mpr ⟨StableHlo.devRef_mem_tcRefs b, hb⟩)
    ⟨(mem main_v30 (by decide)).trans
        (out_of_chain (a c) (W3 m c) (W4 m c) (W5 m c) (W6 m c) (W7 m c) (W8 m c) (W9 m c) (W10 m c)
          (W4_of m c) (W5_of m c) (W6_of m c) (W7_of m c) (W8_of m c)
          (host_A m c (a c) (h c)) (host_x m c (a c) (h c))
          (host_W0 m c (a c) (h c)) (host_W1 m c (a c) (h c)) (host_W2 m c (a c) (h c))
          (host_b0 m c (a c) (h c)) (host_b1 m c (a c) (h c)) (host_b2 m c (a c) (h c))
          (fun X W hX hW => by rw [W4_out]; exact lin0_value (fun c b => W3 m c b) c X W hX hW)
          (fun A S b hA hS hb => by rw [W5_out]; exact agg1_value (fun c b => W4 m c b) c A S b hA hS hb)
          (fun X W hX hW => by rw [W6_out]; exact lin2_value (fun c b => W5 m c b) c X W hX hW)
          (fun A S b hA hS hb => by rw [W7_out]; exact agg3_value (fun c b => W6 m c b) c A S b hA hS hb)
          (fun X W hX hW => by rw [W8_out]; exact lin4_value (fun c b => W7 m c b) c X W hX hW)
          (fun A S b hA hS hb => by rw [W9_out]; exact agg5_value (fun c b => W8 m c b) c A S b hA hS hb)
          (fun O hO => host_out (W9 m c) O hO)),
      (mem main_arg0 (by decide)).trans (W10_main_arg0 m c),
      (mem main_arg1 (by decide)).trans (W10_main_arg1 m c),
      (mem main_arg2 (by decide)).trans (W10_main_arg2 m c),
      (mem main_arg3 (by decide)).trans (W10_main_arg3 m c),
      (mem main_arg4 (by decide)).trans (W10_main_arg4 m c),
      (mem main_arg5 (by decide)).trans (W10_main_arg5 m c),
      (mem main_arg6 (by decide)).trans (W10_main_arg6 m c),
      (mem main_arg7 (by decide)).trans (W10_main_arg7 m c),
      (mem main_arg8 (by decide)).trans (W10_main_arg8 m c),
      (mem main_arg9 (by decide)).trans (W10_main_arg9 m c)⟩) (run_all m ρ)

end Cert.KernelIdeal.KerValue

end
-- ==== Proof.RefValue.lean ====
import proofs.«425200_j18691697672407_2_alg».proof.Proof.Gen.ReferenceIdeal.Run
import proofs.«425200_j18691697672407_2_alg».proof.Proof.Gen.ReferenceIdeal.Read
import proofs.«425200_j18691697672407_2_alg».proof.Proof.Agree
import proofs.«425200_j18691697672407_2_alg».proof.Proof.LibScatterGatherRows
import Idealize.ShloMosaic.Lib.ValueIdx
import Idealize.ShloMosaic.Lib.Pipeline.Value
import Idealize.ShloMosaic.PureOps.Ideal.Laws
import Idealize.ShloMosaic.Lib.StableHlo.Run
import Mathlib.Data.EReal.Basic

noncomputable section

open scoped BigOperators

namespace Cert.ReferenceIdeal.RefValue

open Cert.Gcn Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

theorem idx1_ext {n : ℕ} (i j : (⟨1, ![n]⟩ : Shape).Idx) (h : (i 0).val = (j 0).val) : i = j := by
  funext q
  match q with
  | ⟨0, _⟩ => exact Fin.ext h

theorem idx2_ext {n m : ℕ} (i j : (⟨2, ![n, m]⟩ : Shape).Idx) (h0 : (i 0).val = (j 0).val)
    (h1 : (i 1).val = (j 1).val) : i = j := by
  funext q
  match q with
  | ⟨0, _⟩ => exact Fin.ext h0
  | ⟨1, _⟩ => exact Fin.ext h1

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

theorem wrap_word (w : BitVec 32) (h : 0 ≤ w.toInt) :
    Scalar.select (IntOp.cmpi .slt w 0#32) (IntOp.addi w 10000#32) w = w := by
  have hc : IntOp.cmpi .slt w 0#32 = 0#1 := by
    unfold IntOp.cmpi
    have : w.slt 0#32 = false := by
      simp only [BitVec.slt, BitVec.toInt_zero, decide_eq_false_iff_not, not_lt]
      exact h
    rw [this]; rfl
  rw [hc]; exact select_zero _ _

theorem lin_isMat {N K C : ℕ} {X : (⟨2, ![N, K]⟩ : Shape).Idx → EReal} {x : Fin N → Fin K → ℝ} (hX : IsMat X x)
    {W : (⟨2, ![K, C]⟩ : Shape).Idx → EReal} {w : Fin K → Fin C → ℝ} (hW : IsMat W w)
    (D : (⟨2, ![N, C]⟩ : Shape).Idx → EReal)
    (hD : ∀ r c, D (ix2 r c) = ∑ k : Fin K, X (ix2 r k) * W (ix2 k c)) : IsMat D (lin x w) := by
  intro r c
  rw [hD]
  unfold lin
  rw [coe_sum]
  refine Finset.sum_congr rfl fun k _ => ?_
  rw [hX, hW, EReal.coe_mul]

theorem layer_isMat {C : ℕ}
    {S : (⟨2, ![10000, C]⟩ : Shape).Idx → EReal} {s : Fin 10000 → Fin C → ℝ} (hS : IsMat S s)
    {er ec : (⟨1, ![320000]⟩ : Shape).Idx → BitVec 32} {row col : Fin 320000 → Fin 10000}
    (hr : IsIdx er row) (hc : IsIdx ec col)
    {ev : (⟨1, ![320000]⟩ : Shape).Idx → EReal} {val : Fin 320000 → ℝ} (hv : IsVec ev val)
    {b : (⟨1, ![C]⟩ : Shape).Idx → EReal} {bias : Fin C → ℝ} (hb : IsVec b bias)
    (ic ir : (⟨2, ![320000, 1]⟩ : Shape).Idx → BitVec 32)
    (hic : ∀ e, ic (ix2 e 0)
      = Scalar.select (IntOp.cmpi .slt (ec (ix1 e)) 0#32) (IntOp.addi (ec (ix1 e)) 10000#32) (ec (ix1 e)))
    (hir : ∀ e, ir (ix2 e 0) = er (ix1 e))
    (G P : (⟨2, ![320000, C]⟩ : Shape).Idx → EReal)
    (hG : ∀ e k, G (ix2 e k) = S (ix2 ⟨min (ic (ix2 e 0)).toInt.toNat (10000 - 1), by omega⟩ k))
    (hP : ∀ e k, P (ix2 e k) = G (ix2 e k) * ev (ix1 e))
    (A O : (⟨2, ![10000, C]⟩ : Shape).Idx → EReal)
    (hA : ∀ v k, A (ix2 v k) = (0 : EReal)
      + ∑ e ∈ Finset.univ.filter (fun e : Fin 320000 => (ir (ix2 e 0)).toInt = (v.val : ℤ)), P (ix2 e k))
    (hO : ∀ v k, O (ix2 v k) = A (ix2 v k) + b (ix1 k)) :
    IsMat O (layer row col val s bias) := by
  intro v k

  have hrow : ∀ e : Fin 320000, (⟨min (ic (ix2 e 0)).toInt.toNat (10000 - 1), by omega⟩ : Fin 10000) = col e := by
    intro e
    apply Fin.ext
    have h0 : 0 ≤ (ec (ix1 e)).toInt := by rw [hc e]; exact Int.natCast_nonneg _
    show min (ic (ix2 e 0)).toInt.toNat (10000 - 1) = (col e).val
    rw [hic e, wrap_word _ h0, hc e]
    have := (col e).isLt
    omega

  have hland : (Finset.univ.filter (fun e : Fin 320000 => (ir (ix2 e 0)).toInt = (v.val : ℤ)))
      = Finset.univ.filter (fun e : Fin 320000 => row e = v) := by
    refine Finset.filter_congr fun e _ => ?_
    rw [hir e, hr e]
    constructor
    · intro h; exact Fin.ext (by exact_mod_cast h)
    · intro h; rw [h]
  rw [hO, hA, hb, hland, zero_add]
  unfold layer spmm
  rw [EReal.coe_add, coe_sum]
  refine congrArg (fun t : EReal => t + ((bias k : ℝ) : EReal)) ?_
  refine Finset.sum_congr rfl fun e _ => ?_
  rw [hP, hG, hrow e, hS, hv, ← EReal.coe_mul, mul_comm]

theorem cat_isMat {L : (⟨2, ![10000, 512]⟩ : Shape).Idx → EReal} {l : Fin 10000 → Fin 512 → ℝ} (hL : IsMat L l)
    (R : (⟨2, ![10000, 512]⟩ : Shape).Idx → EReal) (hR : ∀ r c, R (ix2 r c) = max (L (ix2 r c)) 0)
    (K : (⟨2, ![10000, 1024]⟩ : Shape).Idx → EReal)
    (hKl : ∀ r (c : Fin 1024) (h : c.val < 512), K (ix2 r c) = R (ix2 r ⟨c.val, h⟩))
    (hKr : ∀ r (c : Fin 1024) (h : 512 ≤ c.val), K (ix2 r c) = L (ix2 r ⟨c.val - 512, by omega⟩)) :
    IsMat K (cat 1024 (by decide : 0 < 512) l) := by
  intro r c
  unfold cat
  by_cases h : c.val < 512
  · rw [dif_pos h, hKl r c h, hR, hL, coe_max, EReal.coe_zero]
  · rw [dif_neg h, hKr r c (Nat.le_of_not_lt h), hL]
    have e : (⟨c.val - 512, by omega⟩ : Fin 512) = ⟨(c.val - 512) % 512, Nat.mod_lt _ (by decide)⟩ :=
      Fin.ext (Nat.mod_eq_of_lt (by omega)).symm
    rw [e]

theorem gather512_apply (x : FVec Ideal S10000x512 .f32) (idx : IVec S320000x1 32) (e : Fin 320000) (k : Fin 512) :
    (Host.gather gather_S10000x512_S320000x1_S320000x512_1_0_n_n_0_1_1512 x idx : FVec Ideal S320000x512 .f32) (ix2 e k)
      = x (ix2 ⟨min (idx (ix2 e 0)).toInt.toNat (10000 - 1), by omega⟩ k) :=
  Cert.LibScatterGatherRows.gather_rows_ideal _ rfl rfl rfl rfl rfl x idx e k (by decide)

theorem gather256_apply (x : FVec Ideal S10000x256 .f32) (idx : IVec S320000x1 32) (e : Fin 320000) (k : Fin 256) :
    (Host.gather gather_S10000x256_S320000x1_S320000x256_1_0_n_n_0_1_1256 x idx : FVec Ideal S320000x256 .f32) (ix2 e k)
      = x (ix2 ⟨min (idx (ix2 e 0)).toInt.toNat (10000 - 1), by omega⟩ k) :=
  Cert.LibScatterGatherRows.gather_rows_ideal _ rfl rfl rfl rfl rfl x idx e k (by decide)

theorem scatter512_apply (x : FVec Ideal S10000x512 .f32) (idx : IVec S320000x1 32) (upd : FVec Ideal S320000x512 .f32)
    (v : Fin 10000) (k : Fin 512) :
    Host.scatterAdd (F := Ideal) scatter_S10000x512_S320000x1_S320000x512_1_0_0_1 x idx upd (ix2 v k)
      = x (ix2 v k)
        + ∑ e ∈ Finset.univ.filter (fun e : Fin 320000 => (idx (ix2 e 0)).toInt = (v.val : ℤ)), upd (ix2 e k) :=
  Cert.LibScatterGatherRows.scatterAdd_rows _ rfl rfl rfl rfl x idx upd v k

theorem scatter256_apply (x : FVec Ideal S10000x256 .f32) (idx : IVec S320000x1 32) (upd : FVec Ideal S320000x256 .f32)
    (v : Fin 10000) (k : Fin 256) :
    Host.scatterAdd (F := Ideal) scatter_S10000x256_S320000x1_S320000x256_1_0_0_1 x idx upd (ix2 v k)
      = x (ix2 v k)
        + ∑ e ∈ Finset.univ.filter (fun e : Fin 320000 => (idx (ix2 e 0)).toInt = (v.val : ℤ)), upd (ix2 e k) :=
  Cert.LibScatterGatherRows.scatterAdd_rows _ rfl rfl rfl rfl x idx upd v k

theorem concat_left {α : Type} (a b : S10000x512.Idx → α) (h : Shape.Concatenates [S10000x512, S10000x512] S10000x1024 1)
    (r : Fin 10000) (c : Fin 1024) (hc : c.val < 512) :
    concatenate S10000x1024 1 [⟨S10000x512, a⟩, ⟨S10000x512, b⟩] h (ix2 r c) = a (ix2 r ⟨c.val, hc⟩) := by
  refine concatenate_pair_apply_left (1 : Fin S10000x1024.rank) a b h (ix2 r c) rfl (ix2 r ⟨c.val, hc⟩) ?_
  intro q
  match q with
  | ⟨0, _⟩ => rfl
  | ⟨1, _⟩ => rfl

theorem concat_right {α : Type} (a b : S10000x512.Idx → α) (h : Shape.Concatenates [S10000x512, S10000x512] S10000x1024 1)
    (r : Fin 10000) (c : Fin 1024) (hc : 512 ≤ c.val) :
    concatenate S10000x1024 1 [⟨S10000x512, a⟩, ⟨S10000x512, b⟩] h (ix2 r c) = b (ix2 r ⟨c.val - 512, by omega⟩) := by
  refine concatenate_pair_apply_right (1 : Fin S10000x1024.rank) a b h (ix2 r c) rfl rfl (ix2 r ⟨c.val - 512, by omega⟩) ?_ ?_
  · intro q hq
    match q with
    | ⟨0, _⟩ => rfl
    | ⟨1, _⟩ => exact absurd rfl hq
  · show c.val - 512 + 512 = c.val
    omega

theorem zero_v11 (i : S10000x512.Idx) : val_main_v11 (F := Ideal) i = (0 : EReal) := by
  rw [val_main_v11_apply, val_main_cst_apply, Ideal.ofBits_def, Ideal.ofBits_zero_f32]

theorem zero_call0 (i : S10000x512.Idx) : val_main_call0_v0 (F := Ideal) i = (0 : EReal) := by
  rw [val_main_call0_v0_apply, val_main_call0_cst_apply, Ideal.ofBits_def, Ideal.ofBits_zero_f32]

theorem zero_v30 (i : S10000x512.Idx) : val_main_v30 (F := Ideal) i = (0 : EReal) := by
  rw [val_main_v30_apply, val_main_cst_3_apply, Ideal.ofBits_def, Ideal.ofBits_zero_f32]

theorem zero_call1 (i : S10000x512.Idx) : val_main_call1_v0 (F := Ideal) i = (0 : EReal) := by
  rw [val_main_call1_v0_apply, val_main_call1_cst_apply, Ideal.ofBits_def, Ideal.ofBits_zero_f32]

theorem zero_v49 (i : S10000x256.Idx) : val_main_v49 (F := Ideal) i = (0 : EReal) := by
  rw [val_main_v49_apply, val_main_cst_6_apply, Ideal.ofBits_def, Ideal.ofBits_zero_f32]

-- Stage by stage, each array the reference computes holds the real matrix the model names for it.
section

variable (a : Args) (x0 : (⟨S10000x512, .f32⟩ : BufTy).Contents (Elt Ideal)) (x1 x2 : (⟨S320000, .i32⟩ : BufTy).Contents (Elt Ideal))
  (x3 : (⟨S320000, .f32⟩ : BufTy).Contents (Elt Ideal)) (x4 : (⟨S512x512, .f32⟩ : BufTy).Contents (Elt Ideal))
  (x5 : (⟨S1024x512, .f32⟩ : BufTy).Contents (Elt Ideal)) (x6 : (⟨S1024x256, .f32⟩ : BufTy).Contents (Elt Ideal))
  (x7 x8 : (⟨S512, .f32⟩ : BufTy).Contents (Elt Ideal)) (x9 : (⟨S256, .f32⟩ : BufTy).Contents (Elt Ideal))
  (h : Holds a x0 x1 x2 x3 x4 x5 x6 x7 x8 x9)
include h

theorem support0 :
    IsMat (val_main_v0 (F := Ideal) x0 x4) (lin a.x a.W0) :=
  lin_isMat h.x h.W0 _ fun r c => by
    rw [val_main_v0_apply]
    refine Finset.sum_congr rfl fun k _ => ?_
    rw [show lidx_main_v0 (ix2 r c) k = ix2 r k from idx2_ext _ _ rfl rfl,
      show ridx_main_v0 (ix2 r c) k = ix2 k c from idx2_ext _ _ rfl rfl]

theorem l0_isMat :
    IsMat (val_main_v16 (F := Ideal) x0 x1 x2 x3 x4 x7) a.l0 :=
  layer_isMat (support0 a x0 x1 x2 x3 x4 x5 x6 x7 x8 x9 h) h.row h.col h.val h.b0
    (val_main_v6 (F := Ideal) x2) (val_main_v12 (F := Ideal) x1)
    (fun e => by
      rw [val_main_v6_apply, show idx_main_v6 (ix2 e (0 : Fin 1)) = ix1 e from idx1_ext _ _ rfl,
        val_main_v5_apply, val_main_v2_apply, val_main_v4_apply, val_main_v1_apply, val_main_v3_apply,
        val_main_c_apply, val_main_c_0_apply])
    (fun e => (val_main_v12_apply x1 (ix2 e (0 : Fin 1))).trans (congrArg x1 (idx1_ext _ _ rfl)))
    (val_main_v7 (F := Ideal) x0 x2 x4) (val_main_v10 (F := Ideal) x0 x2 x3 x4)
    (fun e k => gather512_apply (val_main_v0 (F := Ideal) x0 x4) (val_main_v6 (F := Ideal) x2) e k)
    (fun e k => by
      rw [val_main_v10_apply, val_main_v9_apply, val_main_v8_apply,
        show idx_main_v8 (idx_main_v9 (ix2 e k)) = ix1 e from idx1_ext _ _ rfl]
      rfl)
    (val_main_v13 (F := Ideal) x0 x1 x2 x3 x4) (val_main_v16 (F := Ideal) x0 x1 x2 x3 x4 x7)
    (fun v k => by
      unfold val_main_v13
      rw [scatter512_apply, zero_v11])
    (fun v k => by
      rw [val_main_v16_apply, val_main_v15_apply, val_main_v14_apply,
        show idx_main_v14 (idx_main_v15 (ix2 v k)) = ix1 k from idx1_ext _ _ rfl]
      rfl)

theorem x1_isMat :
    IsMat (val_main_v18 (F := Ideal) x0 x1 x2 x3 x4 x7) a.x1 :=
  cat_isMat (l0_isMat a x0 x1 x2 x3 x4 x5 x6 x7 x8 x9 h) (val_main_v17 (F := Ideal) x0 x1 x2 x3 x4 x7)
    (fun r c => by
      rw [val_main_v17_apply, zero_call0]
      rfl)
    (val_main_v18 (F := Ideal) x0 x1 x2 x3 x4 x7)
    (fun r c hc => concat_left _ _ _ r c hc)
    (fun r c hc => concat_right _ _ _ r c hc)

theorem support1 :
    IsMat (val_main_v19 (F := Ideal) x0 x1 x2 x3 x4 x5 x7) (lin a.x1 a.W1) :=
  lin_isMat (x1_isMat a x0 x1 x2 x3 x4 x5 x6 x7 x8 x9 h) h.W1 _ fun r c => by
    rw [val_main_v19_apply]
    refine Finset.sum_congr rfl fun k _ => ?_
    rw [show lidx_main_v19 (ix2 r c) k = ix2 r k from idx2_ext _ _ rfl rfl,
      show ridx_main_v19 (ix2 r c) k = ix2 k c from idx2_ext _ _ rfl rfl]

theorem l1_isMat :
    IsMat (val_main_v35 (F := Ideal) x0 x1 x2 x3 x4 x5 x7 x8) a.l1 :=
  layer_isMat (support1 a x0 x1 x2 x3 x4 x5 x6 x7 x8 x9 h) h.row h.col h.val h.b1
    (val_main_v25 (F := Ideal) x2) (val_main_v31 (F := Ideal) x1)
    (fun e => by
      rw [val_main_v25_apply, show idx_main_v25 (ix2 e (0 : Fin 1)) = ix1 e from idx1_ext _ _ rfl,
        val_main_v24_apply, val_main_v21_apply, val_main_v23_apply, val_main_v20_apply, val_main_v22_apply,
        val_main_c_1_apply, val_main_c_2_apply])
    (fun e => (val_main_v31_apply x1 (ix2 e (0 : Fin 1))).trans (congrArg x1 (idx1_ext _ _ rfl)))
    (val_main_v26 (F := Ideal) x0 x1 x2 x3 x4 x5 x7) (val_main_v29 (F := Ideal) x0 x1 x2 x3 x4 x5 x7)
    (fun e k => gather512_apply (val_main_v19 (F := Ideal) x0 x1 x2 x3 x4 x5 x7) (val_main_v25 (F := Ideal) x2) e k)
    (fun e k => by
      rw [val_main_v29_apply, val_main_v28_apply, val_main_v27_apply,
        show idx_main_v27 (idx_main_v28 (ix2 e k)) = ix1 e from idx1_ext _ _ rfl]
      rfl)
    (val_main_v32 (F := Ideal) x0 x1 x2 x3 x4 x5 x7) (val_main_v35 (F := Ideal) x0 x1 x2 x3 x4 x5 x7 x8)
    (fun v k => by
      unfold val_main_v32
      rw [scatter512_apply, zero_v30])
    (fun v k => by
      rw [val_main_v35_apply, val_main_v34_apply, val_main_v33_apply,
        show idx_main_v33 (idx_main_v34 (ix2 v k)) = ix1 k from idx1_ext _ _ rfl]
      rfl)

theorem x2_isMat :
    IsMat (val_main_v37 (F := Ideal) x0 x1 x2 x3 x4 x5 x7 x8) a.x2 :=
  cat_isMat (l1_isMat a x0 x1 x2 x3 x4 x5 x6 x7 x8 x9 h) (val_main_v36 (F := Ideal) x0 x1 x2 x3 x4 x5 x7 x8)
    (fun r c => by
      rw [val_main_v36_apply, zero_call1]
      rfl)
    (val_main_v37 (F := Ideal) x0 x1 x2 x3 x4 x5 x7 x8)
    (fun r c hc => concat_left _ _ _ r c hc)
    (fun r c hc => concat_right _ _ _ r c hc)

theorem support2 :
    IsMat (val_main_v38 (F := Ideal) x0 x1 x2 x3 x4 x5 x6 x7 x8) (lin a.x2 a.W2) :=
  lin_isMat (x2_isMat a x0 x1 x2 x3 x4 x5 x6 x7 x8 x9 h) h.W2 _ fun r c => by
    rw [val_main_v38_apply]
    refine Finset.sum_congr rfl fun k _ => ?_
    rw [show lidx_main_v38 (ix2 r c) k = ix2 r k from idx2_ext _ _ rfl rfl,
      show ridx_main_v38 (ix2 r c) k = ix2 k c from idx2_ext _ _ rfl rfl]

theorem out_isMat :
    IsMat (val_main_v54 (F := Ideal) x0 x1 x2 x3 x4 x5 x6 x7 x8 x9) a.out :=
  layer_isMat (support2 a x0 x1 x2 x3 x4 x5 x6 x7 x8 x9 h) h.row h.col h.val h.b2
    (val_main_v44 (F := Ideal) x2) (val_main_v50 (F := Ideal) x1)
    (fun e => by
      rw [val_main_v44_apply, show idx_main_v44 (ix2 e (0 : Fin 1)) = ix1 e from idx1_ext _ _ rfl,
        val_main_v43_apply, val_main_v40_apply, val_main_v42_apply, val_main_v39_apply, val_main_v41_apply,
        val_main_c_4_apply, val_main_c_5_apply])
    (fun e => (val_main_v50_apply x1 (ix2 e (0 : Fin 1))).trans (congrArg x1 (idx1_ext _ _ rfl)))
    (val_main_v45 (F := Ideal) x0 x1 x2 x3 x4 x5 x6 x7 x8) (val_main_v48 (F := Ideal) x0 x1 x2 x3 x4 x5 x6 x7 x8)
    (fun e k => gather256_apply (val_main_v38 (F := Ideal) x0 x1 x2 x3 x4 x5 x6 x7 x8) (val_main_v44 (F := Ideal) x2) e k)
    (fun e k => by
      rw [val_main_v48_apply, val_main_v47_apply, val_main_v46_apply,
        show idx_main_v46 (idx_main_v47 (ix2 e k)) = ix1 e from idx1_ext _ _ rfl]
      rfl)
    (val_main_v51 (F := Ideal) x0 x1 x2 x3 x4 x5 x6 x7 x8) (val_main_v54 (F := Ideal) x0 x1 x2 x3 x4 x5 x6 x7 x8 x9)
    (fun v k => by
      unfold val_main_v51
      rw [scatter256_apply, zero_v49])
    (fun v k => by
      rw [val_main_v54_apply, val_main_v53_apply, val_main_v52_apply,
        show idx_main_v52 (idx_main_v53 (ix2 v k)) = ix1 k from idx1_ext _ _ rfl]
      rfl)

theorem out_eq :
    val_main_v54 (F := Ideal) x0 x1 x2 x3 x4 x5 x6 x7 x8 x9 = outArr a :=
  (out_isMat a x0 x1 x2 x3 x4 x5 x6 x7 x8 x9 h).eq

end

theorem run_out (a : Dev Cert.ReferenceIdeal.nD → Cert.Gcn.Args) (m : (ℓ : Loc nD τ sig) → Buf (Elt Ideal) ℓ) (ρ : Dev nD → PrngReg)
    (h : ∀ c : Dev nD, Cert.Gcn.Holds (a c) (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))) :
    θ_run Cert.ReferenceIdeal.defs (onTc (τ := τ) (main (F := Ideal))) ⟨m, fun _ => 0, ρ⟩ (fun r => ∀ c : Dev nD,
      r.2.mem ((c.tc : Thread nD τ).loc main_v54) = Cert.Gcn.outArr (a c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.ReferenceIdeal.defs _ _).mono
    (fun _ hr c => ⟨(hr c).1.trans ((val_main_v54_eq m c).trans (out_eq (a c) _ _ _ _ _ _ _ _ _ _ (h c))), (hr c).2⟩)
    (Cert.ReferenceIdeal.Value.run (F := Ideal) m ρ)

end Cert.ReferenceIdeal.RefValue

end
-- ==== Proof.PreDecode.lean ====
import proofs.«425200_j18691697672407_2_alg».proof.Pre_finite_inputs
import proofs.«425200_j18691697672407_2_alg».proof.Proof.Agree
import Idealize.ShloMosaic.Lib.ReduceAll
import Idealize.ShloMosaic.Lib.StableHlo.Predicate
import Idealize.ShloMosaic.Lib.ValueIdx

noncomputable section

namespace Cert.Gcn.Pre

open Idealize.ShloMosaic Idealize.ShloMosaic.ValueIdx Cert.Pre_finite_inputs

instance : Subsingleton S_.Idx := ⟨fun a b => funext fun d => d.elim0⟩

theorem inf_eq_top : Ideal.ofBits .f32 0x7F800000#32 = (⊤ : EReal) := by simp [Ideal.ofBits, Ideal.ieee]

theorem finite_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1) (i : s.Idx) :
    (x i : EReal) ≠ ⊤ ∧ (x i : EReal) ≠ ⊥ := by
  have e := Host.reduce_andi_all _ _ hr hu ix0 h i
  change BitVec.ofBool (decide (max (x i : EReal) (-(x i : EReal)) < Ideal.ofBits .f32 0x7F800000#32)) = 1#1 at e
  rw [inf_eq_top, StableHlo.Predicate.ofBool_eq_one_iff, decide_eq_true_eq, max_lt_iff] at e
  refine ⟨ne_of_lt e.1, fun hbot => ?_⟩
  rw [hbot, EReal.neg_bot] at e
  exact lt_irrefl _ e.2

theorem range_of_all {s : Shape} {axes : List (Fin s.rank)} (I : IVec s 32)
    (hb : S_.BroadcastsInDim s (![] : Fin 0 → Fin s.rank)) (hr : s.ReducesTo axes S_) (hu : 0 < S_.numel)
    (h : Host.reduce IntOp.andi
          (andi (cmpi .sge I (broadcastInDim s ![] hb (constantI S_ 32 0#32)))
            (cmpi .slt I (broadcastInDim s ![] hb (constantI S_ 32 10000#32))))
          (constantI S_ 1 1#1) hr hu ix0 = 1#1) (i : s.Idx) :
    0 ≤ (I i).toInt ∧ (I i).toInt < 10000 := by
  have e := Host.reduce_andi_all _ _ hr hu ix0 h i
  obtain ⟨e1, e2⟩ := IntOp.andi_eq_one.1 e
  change BitVec.ofBool ((0#32 : BitVec 32).sle (I i)) = 1#1 at e1
  change BitVec.ofBool ((I i).slt (10000#32 : BitVec 32)) = 1#1 at e2
  rw [StableHlo.Predicate.ofBool_eq_one_iff] at e1 e2
  simp only [BitVec.sle, BitVec.slt, decide_eq_true_eq] at e1 e2
  have h0 : (0#32 : BitVec 32).toInt = 0 := by decide
  have h1 : (10000#32 : BitVec 32).toInt = 10000 := by decide
  rw [h0] at e1
  rw [h1] at e2
  exact ⟨e1, e2⟩

theorem isMat_toReal {n k : ℕ} (X : (⟨2, ![n, k]⟩ : Shape).Idx → EReal) (h : ∀ i, X i ≠ ⊤ ∧ X i ≠ ⊥) :
    IsMat X (fun r c => (X (ix2 r c)).toReal) :=
  fun r c => (EReal.coe_toReal (h (ix2 r c)).1 (h (ix2 r c)).2).symm

theorem isVec_toReal {n : ℕ} (X : (⟨1, ![n]⟩ : Shape).Idx → EReal) (h : ∀ i, X i ≠ ⊤ ∧ X i ≠ ⊥) :
    IsVec X (fun e => (X (ix1 e)).toReal) :=
  fun e => (EReal.coe_toReal (h (ix1 e)).1 (h (ix1 e)).2).symm

def toIdx {n : ℕ} (I : (⟨1, ![n]⟩ : Shape).Idx → BitVec 32) (e : Fin n) : Fin 10000 :=
  if h : (I (ix1 e)).toInt.toNat < 10000 then ⟨(I (ix1 e)).toInt.toNat, h⟩ else ⟨0, by decide⟩

theorem isIdx_toIdx {n : ℕ} (I : (⟨1, ![n]⟩ : Shape).Idx → BitVec 32)
    (h : ∀ i, 0 ≤ (I i).toInt ∧ (I i).toInt < 10000) : IsIdx I (toIdx I) := by
  intro e
  obtain ⟨h0, h1⟩ := h (ix1 e)
  have hlt : (I (ix1 e)).toInt.toNat < 10000 := by omega
  unfold toIdx
  rw [dif_pos hlt]
  exact (Int.toNat_of_nonneg h0).symm

theorem holds_of_pre [Cert.Pre_finite_inputs.Facts]
    (x : FVec Ideal Cert.Pre_finite_inputs.S10000x512 .f32) (er ec : IVec Cert.Pre_finite_inputs.S320000 32)
    (ev : FVec Ideal Cert.Pre_finite_inputs.S320000 .f32) (w0 : FVec Ideal Cert.Pre_finite_inputs.S512x512 .f32)
    (w1 : FVec Ideal Cert.Pre_finite_inputs.S1024x512 .f32) (w2 : FVec Ideal Cert.Pre_finite_inputs.S1024x256 .f32)
    (b0 b1 : FVec Ideal Cert.Pre_finite_inputs.S512 .f32) (b2 : FVec Ideal Cert.Pre_finite_inputs.S256 .f32)
    (hpre : Cert.Pre_finite_inputs.fn (F := Ideal) x er ec ev w0 w1 w2 b0 b1 b2 = (fun _ => 1#1)) :
    ∃ a : Cert.Gcn.Args, Cert.Gcn.Holds a x er ec ev w0 w1 w2 b0 b1 b2 := by
  have h := congrFun hpre ix0
  dsimp only [fn, fn_part1, fn_part2, fn_part3] at h

  obtain ⟨h, hec⟩ := IntOp.andi_eq_one.1 h
  obtain ⟨h, her⟩ := IntOp.andi_eq_one.1 h
  obtain ⟨h, hb2⟩ := IntOp.andi_eq_one.1 h
  obtain ⟨h, hb1⟩ := IntOp.andi_eq_one.1 h
  obtain ⟨h, hb0⟩ := IntOp.andi_eq_one.1 h
  obtain ⟨h, hw2⟩ := IntOp.andi_eq_one.1 h
  obtain ⟨h, hw1⟩ := IntOp.andi_eq_one.1 h
  obtain ⟨h, hw0⟩ := IntOp.andi_eq_one.1 h
  obtain ⟨hx, hev⟩ := IntOp.andi_eq_one.1 h
  have fx := finite_of_all x _ _ _ hx
  have fev := finite_of_all ev _ _ _ hev
  have fw0 := finite_of_all w0 _ _ _ hw0
  have fw1 := finite_of_all w1 _ _ _ hw1
  have fw2 := finite_of_all w2 _ _ _ hw2
  have fb0 := finite_of_all b0 _ _ _ hb0
  have fb1 := finite_of_all b1 _ _ _ hb1
  have fb2 := finite_of_all b2 _ _ _ hb2
  have rrow := range_of_all er _ _ _ her
  have rcol := range_of_all ec _ _ _ hec
  exact ⟨⟨fun r c => (x (ix2 r c)).toReal, toIdx er, toIdx ec, fun e => (ev (ix1 e)).toReal,
      fun r c => (w0 (ix2 r c)).toReal, fun r c => (w1 (ix2 r c)).toReal, fun r c => (w2 (ix2 r c)).toReal,
      fun e => (b0 (ix1 e)).toReal, fun e => (b1 (ix1 e)).toReal, fun e => (b2 (ix1 e)).toReal⟩,
    ⟨isMat_toReal x fx, isIdx_toIdx er rrow, isIdx_toIdx ec rcol, isVec_toReal ev fev,
      isMat_toReal w0 fw0, isMat_toReal w1 fw1, isMat_toReal w2 fw2,
      isVec_toReal b0 fb0, isVec_toReal b1 fb1, isVec_toReal b2 fb2⟩⟩

end Cert.Gcn.Pre

end
-- ==== Proof.lean ====
import proofs.«425200_j18691697672407_2_alg».proof.Defs
import proofs.«425200_j18691697672407_2_alg».proof.Proof.Gen.Kernel
import proofs.«425200_j18691697672407_2_alg».proof.Proof.Gen.Kernel.Skeleton
import proofs.«425200_j18691697672407_2_alg».proof.Proof.Gen.Kernel.Launch
import proofs.«425200_j18691697672407_2_alg».proof.Proof.Gen.Kernel.Regions
import proofs.«425200_j18691697672407_2_alg».proof.Proof.Gen.Kernel.Points
import proofs.«425200_j18691697672407_2_alg».proof.Proof.Gen.KernelIdeal
import proofs.«425200_j18691697672407_2_alg».proof.Proof.Gen.KernelIdeal.Skeleton
import proofs.«425200_j18691697672407_2_alg».proof.Proof.Gen.KernelIdeal.Launch
import proofs.«425200_j18691697672407_2_alg».proof.Proof.Gen.KernelIdeal.Regions
import proofs.«425200_j18691697672407_2_alg».proof.Proof.Gen.KernelIdeal.Points
import proofs.«425200_j18691697672407_2_alg».proof.Proof.Gen.ReferenceIdeal
import proofs.«425200_j18691697672407_2_alg».proof.Proof.Gen.Pre_finite_inputs
import Idealize.ShloMosaic.Adequacy
import Idealize.ShloMosaic.Init
import proofs.«425200_j18691697672407_2_alg».proof.Proof.K.Run
import proofs.«425200_j18691697672407_2_alg».proof.Proof.KI.Run
import proofs.«425200_j18691697672407_2_alg».proof.Proof.KI.KerValue
import proofs.«425200_j18691697672407_2_alg».proof.Proof.Gen.ReferenceIdeal.Run
import proofs.«425200_j18691697672407_2_alg».proof.Proof.RefValue
import proofs.«425200_j18691697672407_2_alg».proof.Proof.PreDecode

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Under the precondition every array holds real arguments; both programs then end at the network's value: the reference's sum over edges is the kernel's product with the dense adjacency matrix, by distributivity over ℝ.
theorem algebraic : Cert.algebraic_KernelIdeal_ReferenceIdeal := by
  intro m ρ m' ρ' hpre hagree
  choose a ha using fun c : Dev Cert.KernelIdeal.nD => Cert.Gcn.Pre.holds_of_pre _ _ _ _ _ _ _ _ _ _ (hpre c)
  refine ⟨fun c => Cert.Gcn.outArr (a c), Cert.KernelIdeal.KerValue.run_out a m ρ ha,
    Cert.ReferenceIdeal.RefValue.run_out a m' ρ' (fun c => ?_)⟩
  obtain ⟨h0, h1, h2, h3, h4, h5, h6, h7, h8, h9⟩ := hagree c
  rw [h0, h1, h2, h3, h4, h5, h6, h7, h8, h9]
  exact ha c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
